-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  main_v3
-- ==== Kernel.lean ====
abbrev S512x256 : Shape := ⟨2, ![512, 256]⟩
abbrev S1x256 : Shape := ⟨2, ![1, 256]⟩
abbrev S32x256 : Shape := ⟨2, ![32, 256]⟩
abbrev S32 : Shape := ⟨1, ![32]⟩
abbrev S_ : Shape := ⟨0, ![]⟩
abbrev S256 : Shape := ⟨1, ![256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S32x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_dev32 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_283 : BitVec 32 := 1#32
  let v414 : BitVec 32 := Scalar.addi v2 c1_i32_283
  let c32_i32_284 : BitVec 32 := 32#32
  let c0_i32_285 : BitVec 32 := 0#32
  let v415 : BitVec 1 := Scalar.cmpi .eq c32_i32_284 c0_i32_285
  let c1_i32_286 : BitVec 32 := 1#32
  let v416 : BitVec 32 := Scalar.select v415 c1_i32_286 c32_i32_284
  let v417 : BitVec 32 := Scalar.remsi v414 v416
  let c0_i32_288 : BitVec 32 := 0#32
  let v419 : BitVec 1 := Scalar.cmpi .slt v417 c0_i32_288
  let c0_i32_289 : BitVec 32 := 0#32
  let v420 : BitVec 1 := Scalar.cmpi .slt v416 c0_i32_289
  let v421 : BitVec 1 := Scalar.xori v419 v420
  let c0_i32_287 : BitVec 32 := 0#32
  let v418 : BitVec 1 := Scalar.cmpi .ne v417 c0_i32_287
  let v422 : BitVec 1 := Scalar.andi v421 v418
  let v423 : BitVec 32 := Scalar.addi v417 v416
  let v424 : BitVec 32 := Scalar.select v422 v423 v417
  let c1_i32_292 : BitVec 32 := 1#32
  let v425 : BitVec 32 := Scalar.muli v424 c1_i32_292
  let v426 : BitVec 32 := Scalar.addi c0_i32_293 v425
  v426.toNat
def k0_dev33 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_298 : BitVec 32 := 2#32
  let v433 : BitVec 32 := Scalar.addi v2 c2_i32_298
  let c32_i32_299 : BitVec 32 := 32#32
  let c0_i32_300 : BitVec 32 := 0#32
  let v434 : BitVec 1 := Scalar.cmpi .eq c32_i32_299 c0_i32_300
  let c1_i32_301 : BitVec 32 := 1#32
  let v435 : BitVec 32 := Scalar.select v434 c1_i32_301 c32_i32_299
  let v436 : BitVec 32 := Scalar.remsi v433 v435
  let c0_i32_303 : BitVec 32 := 0#32
  let v438 : BitVec 1 := Scalar.cmpi .slt v436 c0_i32_303
  let c0_i32_304 : BitVec 32 := 0#32
  let v439 : BitVec 1 := Scalar.cmpi .slt v435 c0_i32_304
  let v440 : BitVec 1 := Scalar.xori v438 v439
  let c0_i32_302 : BitVec 32 := 0#32
  let v437 : BitVec 1 := Scalar.cmpi .ne v436 c0_i32_302
  let v441 : BitVec 1 := Scalar.andi v440 v437
  let v442 : BitVec 32 := Scalar.addi v436 v435
  let v443 : BitVec 32 := Scalar.select v441 v442 v436
  let c1_i32_307 : BitVec 32 := 1#32
  let v444 : BitVec 32 := Scalar.muli v443 c1_i32_307
  let v445 : BitVec 32 := Scalar.addi c0_i32_308 v444
  v445.toNat
def k0_dev34 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_313 : BitVec 32 := 3#32
  let v452 : BitVec 32 := Scalar.addi v2 c3_i32_313
  let c32_i32_314 : BitVec 32 := 32#32
  let c0_i32_315 : BitVec 32 := 0#32
  let v453 : BitVec 1 := Scalar.cmpi .eq c32_i32_314 c0_i32_315
  let c1_i32_316 : BitVec 32 := 1#32
  let v454 : BitVec 32 := Scalar.select v453 c1_i32_316 c32_i32_314
  let v455 : BitVec 32 := Scalar.remsi v452 v454
  let c0_i32_318 : BitVec 32 := 0#32
  let v457 : BitVec 1 := Scalar.cmpi .slt v455 c0_i32_318
  let c0_i32_319 : BitVec 32 := 0#32
  let v458 : BitVec 1 := Scalar.cmpi .slt v454 c0_i32_319
  let v459 : BitVec 1 := Scalar.xori v457 v458
  let c0_i32_317 : BitVec 32 := 0#32
  let v456 : BitVec 1 := Scalar.cmpi .ne v455 c0_i32_317
  let v460 : BitVec 1 := Scalar.andi v459 v456
  let v461 : BitVec 32 := Scalar.addi v455 v454
  let v462 : BitVec 32 := Scalar.select v460 v461 v455
  let c1_i32_322 : BitVec 32 := 1#32
  let v463 : BitVec 32 := Scalar.muli v462 c1_i32_322
  let v464 : BitVec 32 := Scalar.addi c0_i32_323 v463
  v464.toNat
def k0_dev35 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_328 : BitVec 32 := 4#32
  let v471 : BitVec 32 := Scalar.addi v2 c4_i32_328
  let c32_i32_329 : BitVec 32 := 32#32
  let c0_i32_330 : BitVec 32 := 0#32
  let v472 : BitVec 1 := Scalar.cmpi .eq c32_i32_329 c0_i32_330
  let c1_i32_331 : BitVec 32 := 1#32
  let v473 : BitVec 32 := Scalar.select v472 c1_i32_331 c32_i32_329
  let v474 : BitVec 32 := Scalar.remsi v471 v473
  let c0_i32_333 : BitVec 32 := 0#32
  let v476 : BitVec 1 := Scalar.cmpi .slt v474 c0_i32_333
  let c0_i32_334 : BitVec 32 := 0#32
  let v477 : BitVec 1 := Scalar.cmpi .slt v473 c0_i32_334
  let v478 : BitVec 1 := Scalar.xori v476 v477
  let c0_i32_332 : BitVec 32 := 0#32
  let v475 : BitVec 1 := Scalar.cmpi .ne v474 c0_i32_332
  let v479 : BitVec 1 := Scalar.andi v478 v475
  let v480 : BitVec 32 := Scalar.addi v474 v473
  let v481 : BitVec 32 := Scalar.select v479 v480 v474
  let c1_i32_337 : BitVec 32 := 1#32
  let v482 : BitVec 32 := Scalar.muli v481 c1_i32_337
  let v483 : BitVec 32 := Scalar.addi c0_i32_338 v482
  v483.toNat
def k0_dev36 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_343 : BitVec 32 := 5#32
  let v490 : BitVec 32 := Scalar.addi v2 c5_i32_343
  let c32_i32_344 : BitVec 32 := 32#32
  let c0_i32_345 : BitVec 32 := 0#32
  let v491 : BitVec 1 := Scalar.cmpi .eq c32_i32_344 c0_i32_345
  let c1_i32_346 : BitVec 32 := 1#32
  let v492 : BitVec 32 := Scalar.select v491 c1_i32_346 c32_i32_344
  let v493 : BitVec 32 := Scalar.remsi v490 v492
  let c0_i32_348 : BitVec 32 := 0#32
  let v495 : BitVec 1 := Scalar.cmpi .slt v493 c0_i32_348
  let c0_i32_349 : BitVec 32 := 0#32
  let v496 : BitVec 1 := Scalar.cmpi .slt v492 c0_i32_349
  let v497 : BitVec 1 := Scalar.xori v495 v496
  let c0_i32_347 : BitVec 32 := 0#32
  let v494 : BitVec 1 := Scalar.cmpi .ne v493 c0_i32_347
  let v498 : BitVec 1 := Scalar.andi v497 v494
  let v499 : BitVec 32 := Scalar.addi v493 v492
  let v500 : BitVec 32 := Scalar.select v498 v499 v493
  let c1_i32_352 : BitVec 32 := 1#32
  let v501 : BitVec 32 := Scalar.muli v500 c1_i32_352
  let v502 : BitVec 32 := Scalar.addi c0_i32_353 v501
  v502.toNat
def k0_dev37 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_358 : BitVec 32 := 6#32
  let v509 : BitVec 32 := Scalar.addi v2 c6_i32_358
  let c32_i32_359 : BitVec 32 := 32#32
  let c0_i32_360 : BitVec 32 := 0#32
  let v510 : BitVec 1 := Scalar.cmpi .eq c32_i32_359 c0_i32_360
  let c1_i32_361 : BitVec 32 := 1#32
  let v511 : BitVec 32 := Scalar.select v510 c1_i32_361 c32_i32_359
  let v512 : BitVec 32 := Scalar.remsi v509 v511
  let c0_i32_363 : BitVec 32 := 0#32
  let v514 : BitVec 1 := Scalar.cmpi .slt v512 c0_i32_363
  let c0_i32_364 : BitVec 32 := 0#32
  let v515 : BitVec 1 := Scalar.cmpi .slt v511 c0_i32_364
  let v516 : BitVec 1 := Scalar.xori v514 v515
  let c0_i32_362 : BitVec 32 := 0#32
  let v513 : BitVec 1 := Scalar.cmpi .ne v512 c0_i32_362
  let v517 : BitVec 1 := Scalar.andi v516 v513
  let v518 : BitVec 32 := Scalar.addi v512 v511
  let v519 : BitVec 32 := Scalar.select v517 v518 v512
  let c1_i32_367 : BitVec 32 := 1#32
  let v520 : BitVec 32 := Scalar.muli v519 c1_i32_367
  let v521 : BitVec 32 := Scalar.addi c0_i32_368 v520
  v521.toNat
def k0_dev38 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_373 : BitVec 32 := 7#32
  let v528 : BitVec 32 := Scalar.addi v2 c7_i32_373
  let c32_i32_374 : BitVec 32 := 32#32
  let c0_i32_375 : BitVec 32 := 0#32
  let v529 : BitVec 1 := Scalar.cmpi .eq c32_i32_374 c0_i32_375
  let c1_i32_376 : BitVec 32 := 1#32
  let v530 : BitVec 32 := Scalar.select v529 c1_i32_376 c32_i32_374
  let v531 : BitVec 32 := Scalar.remsi v528 v530
  let c0_i32_378 : BitVec 32 := 0#32
  let v533 : BitVec 1 := Scalar.cmpi .slt v531 c0_i32_378
  let c0_i32_379 : BitVec 32 := 0#32
  let v534 : BitVec 1 := Scalar.cmpi .slt v530 c0_i32_379
  let v535 : BitVec 1 := Scalar.xori v533 v534
  let c0_i32_377 : BitVec 32 := 0#32
  let v532 : BitVec 1 := Scalar.cmpi .ne v531 c0_i32_377
  let v536 : BitVec 1 := Scalar.andi v535 v532
  let v537 : BitVec 32 := Scalar.addi v531 v530
  let v538 : BitVec 32 := Scalar.select v536 v537 v531
  let c1_i32_382 : BitVec 32 := 1#32
  let v539 : BitVec 32 := Scalar.muli v538 c1_i32_382
  let v540 : BitVec 32 := Scalar.addi c0_i32_383 v539
  v540.toNat
def k0_dev39 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_388 : BitVec 32 := 8#32
  let v547 : BitVec 32 := Scalar.addi v2 c8_i32_388
  let c32_i32_389 : BitVec 32 := 32#32
  let c0_i32_390 : BitVec 32 := 0#32
  let v548 : BitVec 1 := Scalar.cmpi .eq c32_i32_389 c0_i32_390
  let c1_i32_391 : BitVec 32 := 1#32
  let v549 : BitVec 32 := Scalar.select v548 c1_i32_391 c32_i32_389
  let v550 : BitVec 32 := Scalar.remsi v547 v549
  let c0_i32_393 : BitVec 32 := 0#32
  let v552 : BitVec 1 := Scalar.cmpi .slt v550 c0_i32_393
  let c0_i32_394 : BitVec 32 := 0#32
  let v553 : BitVec 1 := Scalar.cmpi .slt v549 c0_i32_394
  let v554 : BitVec 1 := Scalar.xori v552 v553
  let c0_i32_392 : BitVec 32 := 0#32
  let v551 : BitVec 1 := Scalar.cmpi .ne v550 c0_i32_392
  let v555 : BitVec 1 := Scalar.andi v554 v551
  let v556 : BitVec 32 := Scalar.addi v550 v549
  let v557 : BitVec 32 := Scalar.select v555 v556 v550
  let c1_i32_397 : BitVec 32 := 1#32
  let v558 : BitVec 32 := Scalar.muli v557 c1_i32_397
  let v559 : BitVec 32 := Scalar.addi c0_i32_398 v558
  v559.toNat
def k0_dev40 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_403 : BitVec 32 := 9#32
  let v566 : BitVec 32 := Scalar.addi v2 c9_i32_403
  let c32_i32_404 : BitVec 32 := 32#32
  let c0_i32_405 : BitVec 32 := 0#32
  let v567 : BitVec 1 := Scalar.cmpi .eq c32_i32_404 c0_i32_405
  let c1_i32_406 : BitVec 32 := 1#32
  let v568 : BitVec 32 := Scalar.select v567 c1_i32_406 c32_i32_404
  let v569 : BitVec 32 := Scalar.remsi v566 v568
  let c0_i32_408 : BitVec 32 := 0#32
  let v571 : BitVec 1 := Scalar.cmpi .slt v569 c0_i32_408
  let c0_i32_409 : BitVec 32 := 0#32
  let v572 : BitVec 1 := Scalar.cmpi .slt v568 c0_i32_409
  let v573 : BitVec 1 := Scalar.xori v571 v572
  let c0_i32_407 : BitVec 32 := 0#32
  let v570 : BitVec 1 := Scalar.cmpi .ne v569 c0_i32_407
  let v574 : BitVec 1 := Scalar.andi v573 v570
  let v575 : BitVec 32 := Scalar.addi v569 v568
  let v576 : BitVec 32 := Scalar.select v574 v575 v569
  let c1_i32_412 : BitVec 32 := 1#32
  let v577 : BitVec 32 := Scalar.muli v576 c1_i32_412
  let v578 : BitVec 32 := Scalar.addi c0_i32_413 v577
  v578.toNat
def k0_dev41 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_418 : BitVec 32 := 10#32
  let v585 : BitVec 32 := Scalar.addi v2 c10_i32_418
  let c32_i32_419 : BitVec 32 := 32#32
  let c0_i32_420 : BitVec 32 := 0#32
  let v586 : BitVec 1 := Scalar.cmpi .eq c32_i32_419 c0_i32_420
  let c1_i32_421 : BitVec 32 := 1#32
  let v587 : BitVec 32 := Scalar.select v586 c1_i32_421 c32_i32_419
  let v588 : BitVec 32 := Scalar.remsi v585 v587
  let c0_i32_423 : BitVec 32 := 0#32
  let v590 : BitVec 1 := Scalar.cmpi .slt v588 c0_i32_423
  let c0_i32_424 : BitVec 32 := 0#32
  let v591 : BitVec 1 := Scalar.cmpi .slt v587 c0_i32_424
  let v592 : BitVec 1 := Scalar.xori v590 v591
  let c0_i32_422 : BitVec 32 := 0#32
  let v589 : BitVec 1 := Scalar.cmpi .ne v588 c0_i32_422
  let v593 : BitVec 1 := Scalar.andi v592 v589
  let v594 : BitVec 32 := Scalar.addi v588 v587
  let v595 : BitVec 32 := Scalar.select v593 v594 v588
  let c1_i32_427 : BitVec 32 := 1#32
  let v596 : BitVec 32 := Scalar.muli v595 c1_i32_427
  let v597 : BitVec 32 := Scalar.addi c0_i32_428 v596
  v597.toNat
def k0_dev42 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_433 : BitVec 32 := 11#32
  let v604 : BitVec 32 := Scalar.addi v2 c11_i32_433
  let c32_i32_434 : BitVec 32 := 32#32
  let c0_i32_435 : BitVec 32 := 0#32
  let v605 : BitVec 1 := Scalar.cmpi .eq c32_i32_434 c0_i32_435
  let c1_i32_436 : BitVec 32 := 1#32
  let v606 : BitVec 32 := Scalar.select v605 c1_i32_436 c32_i32_434
  let v607 : BitVec 32 := Scalar.remsi v604 v606
  let c0_i32_438 : BitVec 32 := 0#32
  let v609 : BitVec 1 := Scalar.cmpi .slt v607 c0_i32_438
  let c0_i32_439 : BitVec 32 := 0#32
  let v610 : BitVec 1 := Scalar.cmpi .slt v606 c0_i32_439
  let v611 : BitVec 1 := Scalar.xori v609 v610
  let c0_i32_437 : BitVec 32 := 0#32
  let v608 : BitVec 1 := Scalar.cmpi .ne v607 c0_i32_437
  let v612 : BitVec 1 := Scalar.andi v611 v608
  let v613 : BitVec 32 := Scalar.addi v607 v606
  let v614 : BitVec 32 := Scalar.select v612 v613 v607
  let c1_i32_442 : BitVec 32 := 1#32
  let v615 : BitVec 32 := Scalar.muli v614 c1_i32_442
  let v616 : BitVec 32 := Scalar.addi c0_i32_443 v615
  v616.toNat
def k0_dev43 (d0 : Dev nD) : Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_448 : BitVec 32 := 12#32
  let v623 : BitVec 32 := Scalar.addi v2 c12_i32_448
  let c32_i32_449 : BitVec 32 := 32#32
  let c0_i32_450 : BitVec 32 := 0#32
  let v624 : BitVec 1 := Scalar.cmpi .eq c32_i32_449 c0_i32_450
  let c1_i32_451 : BitVec 32 := 1#32
  let v625 : BitVec 32 := Scalar.select v624 c1_i32_451 c32_i32_449
  let v626 : BitVec 32 := Scalar.remsi v623 v625
  let c0_i32_453 : BitVec 32 := 0#32
  let v628 : BitVec 1 := Scalar.cmpi .slt v626 c0_i32_453
  let c0_i32_454 : BitVec 32 := 0#32
  let v629 : BitVec 1 := Scalar.cmpi .slt v625 c0_i32_454
  let v630 : BitVec 1 := Scalar.xori v628 v629
  let c0_i32_452 : BitVec 32 := 0#32
  let v627 : BitVec 1 := Scalar.cmpi .ne v626 c0_i32_452
  let v631 : BitVec 1 := Scalar.andi v630 v627
  let v632 : BitVec 32 := Scalar.addi v626 v625
  let v633 : BitVec 32 := Scalar.select v631 v632 v626
  let c1_i32_457 : BitVec 32 := 1#32
  let v634 : BitVec 32 := Scalar.muli v633 c1_i32_457
  let v635 : BitVec 32 := Scalar.addi c0_i32_458 v634
  v635.toNat
def k0_dev44 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_463 : BitVec 32 := 13#32
  let v642 : BitVec 32 := Scalar.addi v2 c13_i32_463
  let c32_i32_464 : BitVec 32 := 32#32
  let c0_i32_465 : BitVec 32 := 0#32
  let v643 : BitVec 1 := Scalar.cmpi .eq c32_i32_464 c0_i32_465
  let c1_i32_466 : BitVec 32 := 1#32
  let v644 : BitVec 32 := Scalar.select v643 c1_i32_466 c32_i32_464
  let v645 : BitVec 32 := Scalar.remsi v642 v644
  let c0_i32_468 : BitVec 32 := 0#32
  let v647 : BitVec 1 := Scalar.cmpi .slt v645 c0_i32_468
  let c0_i32_469 : BitVec 32 := 0#32
  let v648 : BitVec 1 := Scalar.cmpi .slt v644 c0_i32_469
  let v649 : BitVec 1 := Scalar.xori v647 v648
  let c0_i32_467 : BitVec 32 := 0#32
  let v646 : BitVec 1 := Scalar.cmpi .ne v645 c0_i32_467
  let v650 : BitVec 1 := Scalar.andi v649 v646
  let v651 : BitVec 32 := Scalar.addi v645 v644
  let v652 : BitVec 32 := Scalar.select v650 v651 v645
  let c1_i32_472 : BitVec 32 := 1#32
  let v653 : BitVec 32 := Scalar.muli v652 c1_i32_472
  let v654 : BitVec 32 := Scalar.addi c0_i32_473 v653
  v654.toNat
def k0_dev45 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_478 : BitVec 32 := 14#32
  let v661 : BitVec 32 := Scalar.addi v2 c14_i32_478
  let c32_i32_479 : BitVec 32 := 32#32
  let c0_i32_480 : BitVec 32 := 0#32
  let v662 : BitVec 1 := Scalar.cmpi .eq c32_i32_479 c0_i32_480
  let c1_i32_481 : BitVec 32 := 1#32
  let v663 : BitVec 32 := Scalar.select v662 c1_i32_481 c32_i32_479
  let v664 : BitVec 32 := Scalar.remsi v661 v663
  let c0_i32_483 : BitVec 32 := 0#32
  let v666 : BitVec 1 := Scalar.cmpi .slt v664 c0_i32_483
  let c0_i32_484 : BitVec 32 := 0#32
  let v667 : BitVec 1 := Scalar.cmpi .slt v663 c0_i32_484
  let v668 : BitVec 1 := Scalar.xori v666 v667
  let c0_i32_482 : BitVec 32 := 0#32
  let v665 : BitVec 1 := Scalar.cmpi .ne v664 c0_i32_482
  let v669 : BitVec 1 := Scalar.andi v668 v665
  let v670 : BitVec 32 := Scalar.addi v664 v663
  let v671 : BitVec 32 := Scalar.select v669 v670 v664
  let c1_i32_487 : BitVec 32 := 1#32
  let v672 : BitVec 32 := Scalar.muli v671 c1_i32_487
  let v673 : BitVec 32 := Scalar.addi c0_i32_488 v672
  v673.toNat
def k0_dev46 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_493 : BitVec 32 := 15#32
  let v680 : BitVec 32 := Scalar.addi v2 c15_i32_493
  let c32_i32_494 : BitVec 32 := 32#32
  let c0_i32_495 : BitVec 32 := 0#32
  let v681 : BitVec 1 := Scalar.cmpi .eq c32_i32_494 c0_i32_495
  let c1_i32_496 : BitVec 32 := 1#32
  let v682 : BitVec 32 := Scalar.select v681 c1_i32_496 c32_i32_494
  let v683 : BitVec 32 := Scalar.remsi v680 v682
  let c0_i32_498 : BitVec 32 := 0#32
  let v685 : BitVec 1 := Scalar.cmpi .slt v683 c0_i32_498
  let c0_i32_499 : BitVec 32 := 0#32
  let v686 : BitVec 1 := Scalar.cmpi .slt v682 c0_i32_499
  let v687 : BitVec 1 := Scalar.xori v685 v686
  let c0_i32_497 : BitVec 32 := 0#32
  let v684 : BitVec 1 := Scalar.cmpi .ne v683 c0_i32_497
  let v688 : BitVec 1 := Scalar.andi v687 v684
  let v689 : BitVec 32 := Scalar.addi v683 v682
  let v690 : BitVec 32 := Scalar.select v688 v689 v683
  let c1_i32_502 : BitVec 32 := 1#32
  let v691 : BitVec 32 := Scalar.muli v690 c1_i32_502
  let v692 : BitVec 32 := Scalar.addi c0_i32_503 v691
  v692.toNat
def k0_dev47 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_508 : BitVec 32 := 16#32
  let v699 : BitVec 32 := Scalar.addi v2 c16_i32_508
  let c32_i32_509 : BitVec 32 := 32#32
  let c0_i32_510 : BitVec 32 := 0#32
  let v700 : BitVec 1 := Scalar.cmpi .eq c32_i32_509 c0_i32_510
  let c1_i32_511 : BitVec 32 := 1#32
  let v701 : BitVec 32 := Scalar.select v700 c1_i32_511 c32_i32_509
  let v702 : BitVec 32 := Scalar.remsi v699 v701
  let c0_i32_513 : BitVec 32 := 0#32
  let v704 : BitVec 1 := Scalar.cmpi .slt v702 c0_i32_513
  let c0_i32_514 : BitVec 32 := 0#32
  let v705 : BitVec 1 := Scalar.cmpi .slt v701 c0_i32_514
  let v706 : BitVec 1 := Scalar.xori v704 v705
  let c0_i32_512 : BitVec 32 := 0#32
  let v703 : BitVec 1 := Scalar.cmpi .ne v702 c0_i32_512
  let v707 : BitVec 1 := Scalar.andi v706 v703
  let v708 : BitVec 32 := Scalar.addi v702 v701
  let v709 : BitVec 32 := Scalar.select v707 v708 v702
  let c1_i32_517 : BitVec 32 := 1#32
  let v710 : BitVec 32 := Scalar.muli v709 c1_i32_517
  let v711 : BitVec 32 := Scalar.addi c0_i32_518 v710
  v711.toNat
def k0_dev48 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_523 : BitVec 32 := 17#32
  let v718 : BitVec 32 := Scalar.addi v2 c17_i32_523
  let c32_i32_524 : BitVec 32 := 32#32
  let c0_i32_525 : BitVec 32 := 0#32
  let v719 : BitVec 1 := Scalar.cmpi .eq c32_i32_524 c0_i32_525
  let c1_i32_526 : BitVec 32 := 1#32
  let v720 : BitVec 32 := Scalar.select v719 c1_i32_526 c32_i32_524
  let v721 : BitVec 32 := Scalar.remsi v718 v720
  let c0_i32_528 : BitVec 32 := 0#32
  let v723 : BitVec 1 := Scalar.cmpi .slt v721 c0_i32_528
  let c0_i32_529 : BitVec 32 := 0#32
  let v724 : BitVec 1 := Scalar.cmpi .slt v720 c0_i32_529
  let v725 : BitVec 1 := Scalar.xori v723 v724
  let c0_i32_527 : BitVec 32 := 0#32
  let v722 : BitVec 1 := Scalar.cmpi .ne v721 c0_i32_527
  let v726 : BitVec 1 := Scalar.andi v725 v722
  let v727 : BitVec 32 := Scalar.addi v721 v720
  let v728 : BitVec 32 := Scalar.select v726 v727 v721
  let c1_i32_532 : BitVec 32 := 1#32
  let v729 : BitVec 32 := Scalar.muli v728 c1_i32_532
  let v730 : BitVec 32 := Scalar.addi c0_i32_533 v729
  v730.toNat
def k0_dev49 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_538 : BitVec 32 := 18#32
  let v737 : BitVec 32 := Scalar.addi v2 c18_i32_538
  let c32_i32_539 : BitVec 32 := 32#32
  let c0_i32_540 : BitVec 32 := 0#32
  let v738 : BitVec 1 := Scalar.cmpi .eq c32_i32_539 c0_i32_540
  let c1_i32_541 : BitVec 32 := 1#32
  let v739 : BitVec 32 := Scalar.select v738 c1_i32_541 c32_i32_539
  let v740 : BitVec 32 := Scalar.remsi v737 v739
  let c0_i32_543 : BitVec 32 := 0#32
  let v742 : BitVec 1 := Scalar.cmpi .slt v740 c0_i32_543
  let c0_i32_544 : BitVec 32 := 0#32
  let v743 : BitVec 1 := Scalar.cmpi .slt v739 c0_i32_544
  let v744 : BitVec 1 := Scalar.xori v742 v743
  let c0_i32_542 : BitVec 32 := 0#32
  let v741 : BitVec 1 := Scalar.cmpi .ne v740 c0_i32_542
  let v745 : BitVec 1 := Scalar.andi v744 v741
  let v746 : BitVec 32 := Scalar.addi v740 v739
  let v747 : BitVec 32 := Scalar.select v745 v746 v740
  let c1_i32_547 : BitVec 32 := 1#32
  let v748 : BitVec 32 := Scalar.muli v747 c1_i32_547
  let v749 : BitVec 32 := Scalar.addi c0_i32_548 v748
  v749.toNat
def k0_dev50 (d0 : Dev nD) : Nat :=
  let c0_i32_563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_553 : BitVec 32 := 19#32
  let v756 : BitVec 32 := Scalar.addi v2 c19_i32_553
  let c32_i32_554 : BitVec 32 := 32#32
  let c0_i32_555 : BitVec 32 := 0#32
  let v757 : BitVec 1 := Scalar.cmpi .eq c32_i32_554 c0_i32_555
  let c1_i32_556 : BitVec 32 := 1#32
  let v758 : BitVec 32 := Scalar.select v757 c1_i32_556 c32_i32_554
  let v759 : BitVec 32 := Scalar.remsi v756 v758
  let c0_i32_558 : BitVec 32 := 0#32
  let v761 : BitVec 1 := Scalar.cmpi .slt v759 c0_i32_558
  let c0_i32_559 : BitVec 32 := 0#32
  let v762 : BitVec 1 := Scalar.cmpi .slt v758 c0_i32_559
  let v763 : BitVec 1 := Scalar.xori v761 v762
  let c0_i32_557 : BitVec 32 := 0#32
  let v760 : BitVec 1 := Scalar.cmpi .ne v759 c0_i32_557
  let v764 : BitVec 1 := Scalar.andi v763 v760
  let v765 : BitVec 32 := Scalar.addi v759 v758
  let v766 : BitVec 32 := Scalar.select v764 v765 v759
  let c1_i32_562 : BitVec 32 := 1#32
  let v767 : BitVec 32 := Scalar.muli v766 c1_i32_562
  let v768 : BitVec 32 := Scalar.addi c0_i32_563 v767
  v768.toNat
def k0_dev51 (d0 : Dev nD) : Nat :=
  let c0_i32_578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_568 : BitVec 32 := 20#32
  let v775 : BitVec 32 := Scalar.addi v2 c20_i32_568
  let c32_i32_569 : BitVec 32 := 32#32
  let c0_i32_570 : BitVec 32 := 0#32
  let v776 : BitVec 1 := Scalar.cmpi .eq c32_i32_569 c0_i32_570
  let c1_i32_571 : BitVec 32 := 1#32
  let v777 : BitVec 32 := Scalar.select v776 c1_i32_571 c32_i32_569
  let v778 : BitVec 32 := Scalar.remsi v775 v777
  let c0_i32_573 : BitVec 32 := 0#32
  let v780 : BitVec 1 := Scalar.cmpi .slt v778 c0_i32_573
  let c0_i32_574 : BitVec 32 := 0#32
  let v781 : BitVec 1 := Scalar.cmpi .slt v777 c0_i32_574
  let v782 : BitVec 1 := Scalar.xori v780 v781
  let c0_i32_572 : BitVec 32 := 0#32
  let v779 : BitVec 1 := Scalar.cmpi .ne v778 c0_i32_572
  let v783 : BitVec 1 := Scalar.andi v782 v779
  let v784 : BitVec 32 := Scalar.addi v778 v777
  let v785 : BitVec 32 := Scalar.select v783 v784 v778
  let c1_i32_577 : BitVec 32 := 1#32
  let v786 : BitVec 32 := Scalar.muli v785 c1_i32_577
  let v787 : BitVec 32 := Scalar.addi c0_i32_578 v786
  v787.toNat
def k0_dev52 (d0 : Dev nD) : Nat :=
  let c0_i32_593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_583 : BitVec 32 := 21#32
  let v794 : BitVec 32 := Scalar.addi v2 c21_i32_583
  let c32_i32_584 : BitVec 32 := 32#32
  let c0_i32_585 : BitVec 32 := 0#32
  let v795 : BitVec 1 := Scalar.cmpi .eq c32_i32_584 c0_i32_585
  let c1_i32_586 : BitVec 32 := 1#32
  let v796 : BitVec 32 := Scalar.select v795 c1_i32_586 c32_i32_584
  let v797 : BitVec 32 := Scalar.remsi v794 v796
  let c0_i32_588 : BitVec 32 := 0#32
  let v799 : BitVec 1 := Scalar.cmpi .slt v797 c0_i32_588
  let c0_i32_589 : BitVec 32 := 0#32
  let v800 : BitVec 1 := Scalar.cmpi .slt v796 c0_i32_589
  let v801 : BitVec 1 := Scalar.xori v799 v800
  let c0_i32_587 : BitVec 32 := 0#32
  let v798 : BitVec 1 := Scalar.cmpi .ne v797 c0_i32_587
  let v802 : BitVec 1 := Scalar.andi v801 v798
  let v803 : BitVec 32 := Scalar.addi v797 v796
  let v804 : BitVec 32 := Scalar.select v802 v803 v797
  let c1_i32_592 : BitVec 32 := 1#32
  let v805 : BitVec 32 := Scalar.muli v804 c1_i32_592
  let v806 : BitVec 32 := Scalar.addi c0_i32_593 v805
  v806.toNat
def k0_dev53 (d0 : Dev nD) : Nat :=
  let c0_i32_608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_598 : BitVec 32 := 22#32
  let v813 : BitVec 32 := Scalar.addi v2 c22_i32_598
  let c32_i32_599 : BitVec 32 := 32#32
  let c0_i32_600 : BitVec 32 := 0#32
  let v814 : BitVec 1 := Scalar.cmpi .eq c32_i32_599 c0_i32_600
  let c1_i32_601 : BitVec 32 := 1#32
  let v815 : BitVec 32 := Scalar.select v814 c1_i32_601 c32_i32_599
  let v816 : BitVec 32 := Scalar.remsi v813 v815
  let c0_i32_603 : BitVec 32 := 0#32
  let v818 : BitVec 1 := Scalar.cmpi .slt v816 c0_i32_603
  let c0_i32_604 : BitVec 32 := 0#32
  let v819 : BitVec 1 := Scalar.cmpi .slt v815 c0_i32_604
  let v820 : BitVec 1 := Scalar.xori v818 v819
  let c0_i32_602 : BitVec 32 := 0#32
  let v817 : BitVec 1 := Scalar.cmpi .ne v816 c0_i32_602
  let v821 : BitVec 1 := Scalar.andi v820 v817
  let v822 : BitVec 32 := Scalar.addi v816 v815
  let v823 : BitVec 32 := Scalar.select v821 v822 v816
  let c1_i32_607 : BitVec 32 := 1#32
  let v824 : BitVec 32 := Scalar.muli v823 c1_i32_607
  let v825 : BitVec 32 := Scalar.addi c0_i32_608 v824
  v825.toNat
def k0_dev54 (d0 : Dev nD) : Nat :=
  let c0_i32_623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_613 : BitVec 32 := 23#32
  let v832 : BitVec 32 := Scalar.addi v2 c23_i32_613
  let c32_i32_614 : BitVec 32 := 32#32
  let c0_i32_615 : BitVec 32 := 0#32
  let v833 : BitVec 1 := Scalar.cmpi .eq c32_i32_614 c0_i32_615
  let c1_i32_616 : BitVec 32 := 1#32
  let v834 : BitVec 32 := Scalar.select v833 c1_i32_616 c32_i32_614
  let v835 : BitVec 32 := Scalar.remsi v832 v834
  let c0_i32_618 : BitVec 32 := 0#32
  let v837 : BitVec 1 := Scalar.cmpi .slt v835 c0_i32_618
  let c0_i32_619 : BitVec 32 := 0#32
  let v838 : BitVec 1 := Scalar.cmpi .slt v834 c0_i32_619
  let v839 : BitVec 1 := Scalar.xori v837 v838
  let c0_i32_617 : BitVec 32 := 0#32
  let v836 : BitVec 1 := Scalar.cmpi .ne v835 c0_i32_617
  let v840 : BitVec 1 := Scalar.andi v839 v836
  let v841 : BitVec 32 := Scalar.addi v835 v834
  let v842 : BitVec 32 := Scalar.select v840 v841 v835
  let c1_i32_622 : BitVec 32 := 1#32
  let v843 : BitVec 32 := Scalar.muli v842 c1_i32_622
  let v844 : BitVec 32 := Scalar.addi c0_i32_623 v843
  v844.toNat
def k0_dev55 (d0 : Dev nD) : Nat :=
  let c0_i32_638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_628 : BitVec 32 := 24#32
  let v851 : BitVec 32 := Scalar.addi v2 c24_i32_628
  let c32_i32_629 : BitVec 32 := 32#32
  let c0_i32_630 : BitVec 32 := 0#32
  let v852 : BitVec 1 := Scalar.cmpi .eq c32_i32_629 c0_i32_630
  let c1_i32_631 : BitVec 32 := 1#32
  let v853 : BitVec 32 := Scalar.select v852 c1_i32_631 c32_i32_629
  let v854 : BitVec 32 := Scalar.remsi v851 v853
  let c0_i32_633 : BitVec 32 := 0#32
  let v856 : BitVec 1 := Scalar.cmpi .slt v854 c0_i32_633
  let c0_i32_634 : BitVec 32 := 0#32
  let v857 : BitVec 1 := Scalar.cmpi .slt v853 c0_i32_634
  let v858 : BitVec 1 := Scalar.xori v856 v857
  let c0_i32_632 : BitVec 32 := 0#32
  let v855 : BitVec 1 := Scalar.cmpi .ne v854 c0_i32_632
  let v859 : BitVec 1 := Scalar.andi v858 v855
  let v860 : BitVec 32 := Scalar.addi v854 v853
  let v861 : BitVec 32 := Scalar.select v859 v860 v854
  let c1_i32_637 : BitVec 32 := 1#32
  let v862 : BitVec 32 := Scalar.muli v861 c1_i32_637
  let v863 : BitVec 32 := Scalar.addi c0_i32_638 v862
  v863.toNat
def k0_dev56 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_643 : BitVec 32 := 25#32
  let v870 : BitVec 32 := Scalar.addi v2 c25_i32_643
  let c32_i32_644 : BitVec 32 := 32#32
  let c0_i32_645 : BitVec 32 := 0#32
  let v871 : BitVec 1 := Scalar.cmpi .eq c32_i32_644 c0_i32_645
  let c1_i32_646 : BitVec 32 := 1#32
  let v872 : BitVec 32 := Scalar.select v871 c1_i32_646 c32_i32_644
  let v873 : BitVec 32 := Scalar.remsi v870 v872
  let c0_i32_648 : BitVec 32 := 0#32
  let v875 : BitVec 1 := Scalar.cmpi .slt v873 c0_i32_648
  let c0_i32_649 : BitVec 32 := 0#32
  let v876 : BitVec 1 := Scalar.cmpi .slt v872 c0_i32_649
  let v877 : BitVec 1 := Scalar.xori v875 v876
  let c0_i32_647 : BitVec 32 := 0#32
  let v874 : BitVec 1 := Scalar.cmpi .ne v873 c0_i32_647
  let v878 : BitVec 1 := Scalar.andi v877 v874
  let v879 : BitVec 32 := Scalar.addi v873 v872
  let v880 : BitVec 32 := Scalar.select v878 v879 v873
  let c1_i32_652 : BitVec 32 := 1#32
  let v881 : BitVec 32 := Scalar.muli v880 c1_i32_652
  let v882 : BitVec 32 := Scalar.addi c0_i32_653 v881
  v882.toNat
def k0_dev57 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_658 : BitVec 32 := 26#32
  let v889 : BitVec 32 := Scalar.addi v2 c26_i32_658
  let c32_i32_659 : BitVec 32 := 32#32
  let c0_i32_660 : BitVec 32 := 0#32
  let v890 : BitVec 1 := Scalar.cmpi .eq c32_i32_659 c0_i32_660
  let c1_i32_661 : BitVec 32 := 1#32
  let v891 : BitVec 32 := Scalar.select v890 c1_i32_661 c32_i32_659
  let v892 : BitVec 32 := Scalar.remsi v889 v891
  let c0_i32_663 : BitVec 32 := 0#32
  let v894 : BitVec 1 := Scalar.cmpi .slt v892 c0_i32_663
  let c0_i32_664 : BitVec 32 := 0#32
  let v895 : BitVec 1 := Scalar.cmpi .slt v891 c0_i32_664
  let v896 : BitVec 1 := Scalar.xori v894 v895
  let c0_i32_662 : BitVec 32 := 0#32
  let v893 : BitVec 1 := Scalar.cmpi .ne v892 c0_i32_662
  let v897 : BitVec 1 := Scalar.andi v896 v893
  let v898 : BitVec 32 := Scalar.addi v892 v891
  let v899 : BitVec 32 := Scalar.select v897 v898 v892
  let c1_i32_667 : BitVec 32 := 1#32
  let v900 : BitVec 32 := Scalar.muli v899 c1_i32_667
  let v901 : BitVec 32 := Scalar.addi c0_i32_668 v900
  v901.toNat
def k0_dev58 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_673 : BitVec 32 := 27#32
  let v908 : BitVec 32 := Scalar.addi v2 c27_i32_673
  let c32_i32_674 : BitVec 32 := 32#32
  let c0_i32_675 : BitVec 32 := 0#32
  let v909 : BitVec 1 := Scalar.cmpi .eq c32_i32_674 c0_i32_675
  let c1_i32_676 : BitVec 32 := 1#32
  let v910 : BitVec 32 := Scalar.select v909 c1_i32_676 c32_i32_674
  let v911 : BitVec 32 := Scalar.remsi v908 v910
  let c0_i32_678 : BitVec 32 := 0#32
  let v913 : BitVec 1 := Scalar.cmpi .slt v911 c0_i32_678
  let c0_i32_679 : BitVec 32 := 0#32
  let v914 : BitVec 1 := Scalar.cmpi .slt v910 c0_i32_679
  let v915 : BitVec 1 := Scalar.xori v913 v914
  let c0_i32_677 : BitVec 32 := 0#32
  let v912 : BitVec 1 := Scalar.cmpi .ne v911 c0_i32_677
  let v916 : BitVec 1 := Scalar.andi v915 v912
  let v917 : BitVec 32 := Scalar.addi v911 v910
  let v918 : BitVec 32 := Scalar.select v916 v917 v911
  let c1_i32_682 : BitVec 32 := 1#32
  let v919 : BitVec 32 := Scalar.muli v918 c1_i32_682
  let v920 : BitVec 32 := Scalar.addi c0_i32_683 v919
  v920.toNat
def k0_dev59 (d0 : Dev nD) : Nat :=
  let c0_i32_698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_688 : BitVec 32 := 28#32
  let v927 : BitVec 32 := Scalar.addi v2 c28_i32_688
  let c32_i32_689 : BitVec 32 := 32#32
  let c0_i32_690 : BitVec 32 := 0#32
  let v928 : BitVec 1 := Scalar.cmpi .eq c32_i32_689 c0_i32_690
  let c1_i32_691 : BitVec 32 := 1#32
  let v929 : BitVec 32 := Scalar.select v928 c1_i32_691 c32_i32_689
  let v930 : BitVec 32 := Scalar.remsi v927 v929
  let c0_i32_693 : BitVec 32 := 0#32
  let v932 : BitVec 1 := Scalar.cmpi .slt v930 c0_i32_693
  let c0_i32_694 : BitVec 32 := 0#32
  let v933 : BitVec 1 := Scalar.cmpi .slt v929 c0_i32_694
  let v934 : BitVec 1 := Scalar.xori v932 v933
  let c0_i32_692 : BitVec 32 := 0#32
  let v931 : BitVec 1 := Scalar.cmpi .ne v930 c0_i32_692
  let v935 : BitVec 1 := Scalar.andi v934 v931
  let v936 : BitVec 32 := Scalar.addi v930 v929
  let v937 : BitVec 32 := Scalar.select v935 v936 v930
  let c1_i32_697 : BitVec 32 := 1#32
  let v938 : BitVec 32 := Scalar.muli v937 c1_i32_697
  let v939 : BitVec 32 := Scalar.addi c0_i32_698 v938
  v939.toNat
def k0_dev60 (d0 : Dev nD) : Nat :=
  let c0_i32_713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_703 : BitVec 32 := 29#32
  let v946 : BitVec 32 := Scalar.addi v2 c29_i32_703
  let c32_i32_704 : BitVec 32 := 32#32
  let c0_i32_705 : BitVec 32 := 0#32
  let v947 : BitVec 1 := Scalar.cmpi .eq c32_i32_704 c0_i32_705
  let c1_i32_706 : BitVec 32 := 1#32
  let v948 : BitVec 32 := Scalar.select v947 c1_i32_706 c32_i32_704
  let v949 : BitVec 32 := Scalar.remsi v946 v948
  let c0_i32_708 : BitVec 32 := 0#32
  let v951 : BitVec 1 := Scalar.cmpi .slt v949 c0_i32_708
  let c0_i32_709 : BitVec 32 := 0#32
  let v952 : BitVec 1 := Scalar.cmpi .slt v948 c0_i32_709
  let v953 : BitVec 1 := Scalar.xori v951 v952
  let c0_i32_707 : BitVec 32 := 0#32
  let v950 : BitVec 1 := Scalar.cmpi .ne v949 c0_i32_707
  let v954 : BitVec 1 := Scalar.andi v953 v950
  let v955 : BitVec 32 := Scalar.addi v949 v948
  let v956 : BitVec 32 := Scalar.select v954 v955 v949
  let c1_i32_712 : BitVec 32 := 1#32
  let v957 : BitVec 32 := Scalar.muli v956 c1_i32_712
  let v958 : BitVec 32 := Scalar.addi c0_i32_713 v957
  v958.toNat
def k0_dev61 (d0 : Dev nD) : Nat :=
  let c0_i32_728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_718 : BitVec 32 := 30#32
  let v965 : BitVec 32 := Scalar.addi v2 c30_i32_718
  let c32_i32_719 : BitVec 32 := 32#32
  let c0_i32_720 : BitVec 32 := 0#32
  let v966 : BitVec 1 := Scalar.cmpi .eq c32_i32_719 c0_i32_720
  let c1_i32_721 : BitVec 32 := 1#32
  let v967 : BitVec 32 := Scalar.select v966 c1_i32_721 c32_i32_719
  let v968 : BitVec 32 := Scalar.remsi v965 v967
  let c0_i32_723 : BitVec 32 := 0#32
  let v970 : BitVec 1 := Scalar.cmpi .slt v968 c0_i32_723
  let c0_i32_724 : BitVec 32 := 0#32
  let v971 : BitVec 1 := Scalar.cmpi .slt v967 c0_i32_724
  let v972 : BitVec 1 := Scalar.xori v970 v971
  let c0_i32_722 : BitVec 32 := 0#32
  let v969 : BitVec 1 := Scalar.cmpi .ne v968 c0_i32_722
  let v973 : BitVec 1 := Scalar.andi v972 v969
  let v974 : BitVec 32 := Scalar.addi v968 v967
  let v975 : BitVec 32 := Scalar.select v973 v974 v968
  let c1_i32_727 : BitVec 32 := 1#32
  let v976 : BitVec 32 := Scalar.muli v975 c1_i32_727
  let v977 : BitVec 32 := Scalar.addi c0_i32_728 v976
  v977.toNat
def k0_dev62 (d0 : Dev nD) : Nat :=
  let c0_i32_743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_733 : BitVec 32 := 31#32
  let v984 : BitVec 32 := Scalar.addi v2 c31_i32_733
  let c32_i32_734 : BitVec 32 := 32#32
  let c0_i32_735 : BitVec 32 := 0#32
  let v985 : BitVec 1 := Scalar.cmpi .eq c32_i32_734 c0_i32_735
  let c1_i32_736 : BitVec 32 := 1#32
  let v986 : BitVec 32 := Scalar.select v985 c1_i32_736 c32_i32_734
  let v987 : BitVec 32 := Scalar.remsi v984 v986
  let c0_i32_738 : BitVec 32 := 0#32
  let v989 : BitVec 1 := Scalar.cmpi .slt v987 c0_i32_738
  let c0_i32_739 : BitVec 32 := 0#32
  let v990 : BitVec 1 := Scalar.cmpi .slt v986 c0_i32_739
  let v991 : BitVec 1 := Scalar.xori v989 v990
  let c0_i32_737 : BitVec 32 := 0#32
  let v988 : BitVec 1 := Scalar.cmpi .ne v987 c0_i32_737
  let v992 : BitVec 1 := Scalar.andi v991 v988
  let v993 : BitVec 32 := Scalar.addi v987 v986
  let v994 : BitVec 32 := Scalar.select v992 v993 v987
  let c1_i32_742 : BitVec 32 := 1#32
  let v995 : BitVec 32 := Scalar.muli v994 c1_i32_742
  let v996 : BitVec 32 := Scalar.addi c0_i32_743 v995
  v996.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S32x256_S1x256_0_0 : ∀ a, (![0, 0] : Fin 2 → Nat) a + S1x256.size a ≤ S32x256.size a
  h_S1x256 : 0 < S1x256.numel
  shapeCasts_S1x256_S1x256 : S1x256.ShapeCasts S1x256
  hamt_31 : (31#32 : BitVec 32).msb = false
  inb_S32_S1_1 : ∀ a, (![1] : Fin 1 → Nat) a + S1.size a ≤ S32.size a
  squeezes_S1_S_ : S1.Squeezes S_
  inb_S32_S1_31 : ∀ a, (![31] : Fin 1 → Nat) a + S1.size a ≤ S32.size a
  inb_S32x256_S1x256_31_0 : ∀ a, (![31, 0] : Fin 2 → Nat) a + S1x256.size a ≤ S32x256.size a
  inb_S32_S1_2 : ∀ a, (![2] : Fin 1 → Nat) a + S1.size a ≤ S32.size a
  inb_S32_S1_30 : ∀ a, (![30] : Fin 1 → Nat) a + S1.size a ≤ S32.size a
  inb_S32x256_S1x256_30_0 : ∀ a, (![30, 0] : Fin 2 → Nat) a + S1x256.size a ≤ S32x256.size a
  inb_S32_S1_3 : ∀ a, (![3] : Fin 1 → Nat) a + S1.size a ≤ S32.size a
  inb_S32_S1_29 : ∀ a, (![29] : Fin 1 → Nat) a + S1.size a ≤ S32.size a
  inb_S32x256_S1x256_29_0 : ∀ a, (![29, 0] : Fin 2 → Nat) a + S1x256.size a ≤ S32x256.size a
  inb_S32_S1_4 : ∀ a, (![4] : Fin 1 → Nat) a + S1.size a ≤ S32.size a
  inb_S32_S1_28 : ∀ a, (![28] : Fin 1 → Nat) a + S1.size a ≤ S32.size a
  inb_S32x256_S1x256_28_0 : ∀ a, (![28, 0] : Fin 2 → Nat) a + S1x256.size a ≤ S32x256.size a
  inb_S32_S1_5 : ∀ a, (![5] : Fin 1 → Nat) a + S1.size a ≤ S32.size a
  inb_S32_S1_27 : ∀ a, (![27] : Fin 1 → Nat) a + S1.size a ≤ S32.size a
  inb_S32x256_S1x256_27_0 : ∀ a, (![27, 0] : Fin 2 → Nat) a + S1x256.size a ≤ S32x256.size a
  inb_S32_S1_6 : ∀ a, (![6] : Fin 1 → Nat) a + S1.size a ≤ S32.size a
  inb_S32_S1_26 : ∀ a, (![26] : Fin 1 → Nat) a + S1.size a ≤ S32.size a
  inb_S32x256_S1x256_26_0 : ∀ a, (![26, 0] : Fin 2 → Nat) a + S1x256.size a ≤ S32x256.size a
  inb_S32_S1_7 : ∀ a, (![7] : Fin 1 → Nat) a + S1.size a ≤ S32.size a
  inb_S32_S1_25 : ∀ a, (![25] : Fin 1 → Nat) a + S1.size a ≤ S32.size a
  inb_S32x256_S1x256_25_0 : ∀ a, (![25, 0] : Fin 2 → Nat) a + S1x256.size a ≤ S32x256.size a
  inb_S32_S1_8 : ∀ a, (![8] : Fin 1 → Nat) a + S1.size a ≤ S32.size a
  inb_S32_S1_24 : ∀ a, (![24] : Fin 1 → Nat) a + S1.size a ≤ S32.size a
  inb_S32x256_S1x256_24_0 : ∀ a, (![24, 0] : Fin 2 → Nat) a + S1x256.size a ≤ S32x256.size a
  inb_S32_S1_9 : ∀ a, (![9] : Fin 1 → Nat) a + S1.size a ≤ S32.size a
  inb_S32_S1_23 : ∀ a, (![23] : Fin 1 → Nat) a + S1.size a ≤ S32.size a
  inb_S32x256_S1x256_23_0 : ∀ a, (![23, 0] : Fin 2 → Nat) a + S1x256.size a ≤ S32x256.size a
  inb_S32_S1_10 : ∀ a, (![10] : Fin 1 → Nat) a + S1.size a ≤ S32.size a
  inb_S32_S1_22 : ∀ a, (![22] : Fin 1 → Nat) a + S1.size a ≤ S32.size a
  inb_S32x256_S1x256_22_0 : ∀ a, (![22, 0] : Fin 2 → Nat) a + S1x256.size a ≤ S32x256.size a
  inb_S32_S1_11 : ∀ a, (![11] : Fin 1 → Nat) a + S1.size a ≤ S32.size a
  inb_S32_S1_21 : ∀ a, (![21] : Fin 1 → Nat) a + S1.size a ≤ S32.size a
  inb_S32x256_S1x256_21_0 : ∀ a, (![21, 0] : Fin 2 → Nat) a + S1x256.size a ≤ S32x256.size a
  inb_S32_S1_12 : ∀ a, (![12] : Fin 1 → Nat) a + S1.size a ≤ S32.size a
  inb_S32_S1_20 : ∀ a, (![20] : Fin 1 → Nat) a + S1.size a ≤ S32.size a
  inb_S32x256_S1x256_20_0 : ∀ a, (![20, 0] : Fin 2 → Nat) a + S1x256.size a ≤ S32x256.size a
  inb_S32_S1_13 : ∀ a, (![13] : Fin 1 → Nat) a + S1.size a ≤ S32.size a
  inb_S32_S1_19 : ∀ a, (![19] : Fin 1 → Nat) a + S1.size a ≤ S32.size a
  inb_S32x256_S1x256_19_0 : ∀ a, (![19, 0] : Fin 2 → Nat) a + S1x256.size a ≤ S32x256.size a
  inb_S32_S1_14 : ∀ a, (![14] : Fin 1 → Nat) a + S1.size a ≤ S32.size a
  inb_S32_S1_18 : ∀ a, (![18] : Fin 1 → Nat) a + S1.size a ≤ S32.size a
  inb_S32x256_S1x256_18_0 : ∀ a, (![18, 0] : Fin 2 → Nat) a + S1x256.size a ≤ S32x256.size a
  inb_S32_S1_15 : ∀ a, (![15] : Fin 1 → Nat) a + S1.size a ≤ S32.size a
  inb_S32_S1_17 : ∀ a, (![17] : Fin 1 → Nat) a + S1.size a ≤ S32.size a
  inb_S32x256_S1x256_17_0 : ∀ a, (![17, 0] : Fin 2 → Nat) a + S1x256.size a ≤ S32x256.size a
  inb_S32_S1_16 : ∀ a, (![16] : Fin 1 → Nat) a + S1.size a ≤ S32.size a
  inb_S32x256_S1x256_16_0 : ∀ a, (![16, 0] : Fin 2 → Nat) a + S1x256.size a ≤ S32x256.size a
  inb_S32x256_S1x256_15_0 : ∀ a, (![15, 0] : Fin 2 → Nat) a + S1x256.size a ≤ S32x256.size a
  inb_S32x256_S1x256_14_0 : ∀ a, (![14, 0] : Fin 2 → Nat) a + S1x256.size a ≤ S32x256.size a
  inb_S32x256_S1x256_13_0 : ∀ a, (![13, 0] : Fin 2 → Nat) a + S1x256.size a ≤ S32x256.size a
  inb_S32x256_S1x256_12_0 : ∀ a, (![12, 0] : Fin 2 → Nat) a + S1x256.size a ≤ S32x256.size a
  inb_S32x256_S1x256_11_0 : ∀ a, (![11, 0] : Fin 2 → Nat) a + S1x256.size a ≤ S32x256.size a
  inb_S32x256_S1x256_10_0 : ∀ a, (![10, 0] : Fin 2 → Nat) a + S1x256.size a ≤ S32x256.size a
  inb_S32x256_S1x256_9_0 : ∀ a, (![9, 0] : Fin 2 → Nat) a + S1x256.size a ≤ S32x256.size a
  inb_S32x256_S1x256_8_0 : ∀ a, (![8, 0] : Fin 2 → Nat) a + S1x256.size a ≤ S32x256.size a
  inb_S32x256_S1x256_7_0 : ∀ a, (![7, 0] : Fin 2 → Nat) a + S1x256.size a ≤ S32x256.size a
  inb_S32x256_S1x256_6_0 : ∀ a, (![6, 0] : Fin 2 → Nat) a + S1x256.size a ≤ S32x256.size a
  inb_S32x256_S1x256_5_0 : ∀ a, (![5, 0] : Fin 2 → Nat) a + S1x256.size a ≤ S32x256.size a
  inb_S32x256_S1x256_4_0 : ∀ a, (![4, 0] : Fin 2 → Nat) a + S1x256.size a ≤ S32x256.size a
  inb_S32x256_S1x256_3_0 : ∀ a, (![3, 0] : Fin 2 → Nat) a + S1x256.size a ≤ S32x256.size a
  inb_S32x256_S1x256_2_0 : ∀ a, (![2, 0] : Fin 2 → Nat) a + S1x256.size a ≤ S32x256.size a
  inb_S32x256_S1x256_1_0 : ∀ a, (![1, 0] : Fin 2 → Nat) a + S1x256.size a ≤ S32x256.size a
  inb_S32x256_S32x256_0_0 : ∀ a, (![0, 0] : Fin 2 → Nat) a + S32x256.size a ≤ S32x256.size a
  h_S32x256 : 0 < S32x256.numel
  reduces_S32x256_S256 : S32x256.Reduces [0] S256
  inb_S1x256_S1x256_0_0 : ∀ a, (![0, 0] : Fin 2 → Nat) a + S1x256.size a ≤ S1x256.size a
  hcc0_scratch1 : 2 + S32.numel ≤ 66
  hcc0_scratch2 : 34 + S32.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole
  hstage0_1 : ∀ j, (stage0_1 j).IsWhole

variable [Facts₀]

abbrev cc0_scratch1 : DmaSems sig S32 := SemArray.consecutive 2 S32 hcc0_scratch1
abbrev cc0_scratch2 : DmaSems sig S32 := SemArray.consecutive 34 S32 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x256 : Shape := ⟨2, ![16384, 256]⟩
abbrev S_ : Shape := ⟨0, ![]⟩
abbrev S256 : Shape := ⟨1, ![256]⟩
abbrev S1x256 : Shape := ⟨2, ![1, 256]⟩

abbrev nBuf : Space → Nat
  | .hbm => 7
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S_, .f32⟩
  | .hbm, ⟨2, _⟩ => ⟨S256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S16384x256_S256_d0 : S16384x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)

variable [Facts₀]

class Facts : Prop extends Facts₀ where

variable [Facts]
-- ==== Proof.Spec.lean ====
import proofs.«900954_g7700000000000955_dist_mean_ax0_shard0_i_m512_n256_v7x_i32_bf16_1_alg».proof.Proof.Gen.KernelIdeal.Skeleton
import Idealize.ShloMosaic.Lib.ValueIdx

noncomputable section

namespace Cert.KernelIdeal.Mean

open Cert.KernelIdeal Cert.KernelIdeal.Gen
open Idealize.ShloMosaic Idealize.ShloMosaic.ValueIdx

variable {F : FTy → Type} [FloatOps F]

/-- The device `k` places after `c` on the ring of 32. -/
def add (c : Dev nD) (k : Fin 32) : Dev nD := ⟨(c.val + k.val) % 32, Nat.mod_lt _ (by decide)⟩

def sub (c : Dev nD) (k : Fin 32) : Dev nD := ⟨(c.val + (32 - k.val)) % 32, Nat.mod_lt _ (by decide)⟩

def neg (k : Fin 32) : Fin 32 := ⟨(32 - k.val) % 32, Nat.mod_lt _ (by decide)⟩

theorem add_zero (c : Dev nD) : add c 0 = c := by revert c; decide
theorem sub_add (c : Dev nD) (k : Fin 32) : sub (add c k) k = c := by revert c k; decide
theorem add_sub (c : Dev nD) (k : Fin 32) : add (sub c k) k = c := by revert c k; decide
theorem add_add_neg (c : Dev nD) (k : Fin 32) : add (add c k) (neg k) = c := by revert c k; decide
theorem sub_eq_add_neg (c : Dev nD) (k : Fin 32) : sub c k = add c (neg k) := by revert c k; decide
theorem neg_neg (k : Fin 32) : neg (neg k) = k := by revert k; decide
theorem neg_ne_zero (k : Fin 32) (h : k ≠ 0) : neg k ≠ 0 := by revert k; decide

/-- Row `r` of device `c`'s 32 × 256 array: the column sums of the block of the device `r` places after `c`. -/
def accOf (xs : Dev nD → Vec F S512x256 .f32) (c : Dev nD) : Vec F S32x256 .f32 :=
  fun i => k0_pay1 (xs (add c (i 0))) (ix2 (0 : Fin 1) (i 1))

/-- Device `c`'s result: the 32 rows added up and scaled by 2⁻¹⁴. -/
def outOf (xs : Dev nD → Vec F S512x256 .f32) (c : Dev nD) : Vec F S1x256 .f32 :=
  k0_pay3 (k0_pay2 (accOf xs c))

end Cert.KernelIdeal.Mean

end
-- ==== Proof.DevEq.lean ====
import proofs.«900954_g7700000000000955_dist_mean_ax0_shard0_i_m512_n256_v7x_i32_bf16_1_alg».proof.Proof.Gen.KernelIdeal
import proofs.«900954_g7700000000000955_dist_mean_ax0_shard0_i_m512_n256_v7x_i32_bf16_1_alg».proof.Proof.Spec

namespace Cert.KernelIdeal.Mean

open Cert.KernelIdeal Cert.KernelIdeal.Gen Idealize.ShloMosaic

/-- The word arithmetic `f` names, from every device, the device `k` places on: decidable over the 32 devices. -/
abbrev Chain (f : Dev nD → ℕ) (hf : ∀ c, f c < nD) (k : Fin 32) : Prop := ∀ c, (⟨f c, hf c⟩ : Dev nD) = add c k

theorem dev_eq_1 : Chain k0_dev1 k0_dev1_lt 1 := by decide +kernel
theorem dev_eq_2 : Chain k0_dev2 k0_dev2_lt 2 := by decide +kernel
theorem dev_eq_3 : Chain k0_dev3 k0_dev3_lt 3 := by decide +kernel
theorem dev_eq_4 : Chain k0_dev4 k0_dev4_lt 4 := by decide +kernel
theorem dev_eq_5 : Chain k0_dev5 k0_dev5_lt 5 := by decide +kernel
theorem dev_eq_6 : Chain k0_dev6 k0_dev6_lt 6 := by decide +kernel
theorem dev_eq_7 : Chain k0_dev7 k0_dev7_lt 7 := by decide +kernel
theorem dev_eq_8 : Chain k0_dev8 k0_dev8_lt 8 := by decide +kernel
theorem dev_eq_9 : Chain k0_dev9 k0_dev9_lt 9 := by decide +kernel
theorem dev_eq_10 : Chain k0_dev10 k0_dev10_lt 10 := by decide +kernel
theorem dev_eq_11 : Chain k0_dev11 k0_dev11_lt 11 := by decide +kernel
theorem dev_eq_12 : Chain k0_dev12 k0_dev12_lt 12 := by decide +kernel
theorem dev_eq_13 : Chain k0_dev13 k0_dev13_lt 13 := by decide +kernel
theorem dev_eq_14 : Chain k0_dev14 k0_dev14_lt 14 := by decide +kernel
theorem dev_eq_15 : Chain k0_dev15 k0_dev15_lt 15 := by decide +kernel
theorem dev_eq_16 : Chain k0_dev16 k0_dev16_lt 16 := by decide +kernel
theorem dev_eq_17 : Chain k0_dev17 k0_dev17_lt 17 := by decide +kernel
theorem dev_eq_18 : Chain k0_dev18 k0_dev18_lt 18 := by decide +kernel
theorem dev_eq_19 : Chain k0_dev19 k0_dev19_lt 19 := by decide +kernel
theorem dev_eq_20 : Chain k0_dev20 k0_dev20_lt 20 := by decide +kernel
theorem dev_eq_21 : Chain k0_dev21 k0_dev21_lt 21 := by decide +kernel
theorem dev_eq_22 : Chain k0_dev22 k0_dev22_lt 22 := by decide +kernel
theorem dev_eq_23 : Chain k0_dev23 k0_dev23_lt 23 := by decide +kernel
theorem dev_eq_24 : Chain k0_dev24 k0_dev24_lt 24 := by decide +kernel
theorem dev_eq_25 : Chain k0_dev25 k0_dev25_lt 25 := by decide +kernel
theorem dev_eq_26 : Chain k0_dev26 k0_dev26_lt 26 := by decide +kernel
theorem dev_eq_27 : Chain k0_dev27 k0_dev27_lt 27 := by decide +kernel
theorem dev_eq_28 : Chain k0_dev28 k0_dev28_lt 28 := by decide +kernel
theorem dev_eq_29 : Chain k0_dev29 k0_dev29_lt 29 := by decide +kernel
theorem dev_eq_30 : Chain k0_dev30 k0_dev30_lt 30 := by decide +kernel
theorem dev_eq_31 : Chain k0_dev31 k0_dev31_lt 31 := by decide +kernel
theorem dev_eq_32 : Chain k0_dev32 k0_dev32_lt 1 := by decide +kernel
theorem dev_eq_33 : Chain k0_dev33 k0_dev33_lt 2 := by decide +kernel
theorem dev_eq_34 : Chain k0_dev34 k0_dev34_lt 3 := by decide +kernel
theorem dev_eq_35 : Chain k0_dev35 k0_dev35_lt 4 := by decide +kernel
theorem dev_eq_36 : Chain k0_dev36 k0_dev36_lt 5 := by decide +kernel
theorem dev_eq_37 : Chain k0_dev37 k0_dev37_lt 6 := by decide +kernel
theorem dev_eq_38 : Chain k0_dev38 k0_dev38_lt 7 := by decide +kernel
theorem dev_eq_39 : Chain k0_dev39 k0_dev39_lt 8 := by decide +kernel
theorem dev_eq_40 : Chain k0_dev40 k0_dev40_lt 9 := by decide +kernel
theorem dev_eq_41 : Chain k0_dev41 k0_dev41_lt 10 := by decide +kernel
theorem dev_eq_42 : Chain k0_dev42 k0_dev42_lt 11 := by decide +kernel
theorem dev_eq_43 : Chain k0_dev43 k0_dev43_lt 12 := by decide +kernel
theorem dev_eq_44 : Chain k0_dev44 k0_dev44_lt 13 := by decide +kernel
theorem dev_eq_45 : Chain k0_dev45 k0_dev45_lt 14 := by decide +kernel
theorem dev_eq_46 : Chain k0_dev46 k0_dev46_lt 15 := by decide +kernel
theorem dev_eq_47 : Chain k0_dev47 k0_dev47_lt 16 := by decide +kernel
theorem dev_eq_48 : Chain k0_dev48 k0_dev48_lt 17 := by decide +kernel
theorem dev_eq_49 : Chain k0_dev49 k0_dev49_lt 18 := by decide +kernel
theorem dev_eq_50 : Chain k0_dev50 k0_dev50_lt 19 := by decide +kernel
theorem dev_eq_51 : Chain k0_dev51 k0_dev51_lt 20 := by decide +kernel
theorem dev_eq_52 : Chain k0_dev52 k0_dev52_lt 21 := by decide +kernel
theorem dev_eq_53 : Chain k0_dev53 k0_dev53_lt 22 := by decide +kernel
theorem dev_eq_54 : Chain k0_dev54 k0_dev54_lt 23 := by decide +kernel
theorem dev_eq_55 : Chain k0_dev55 k0_dev55_lt 24 := by decide +kernel
theorem dev_eq_56 : Chain k0_dev56 k0_dev56_lt 25 := by decide +kernel
theorem dev_eq_57 : Chain k0_dev57 k0_dev57_lt 26 := by decide +kernel
theorem dev_eq_58 : Chain k0_dev58 k0_dev58_lt 27 := by decide +kernel
theorem dev_eq_59 : Chain k0_dev59 k0_dev59_lt 28 := by decide +kernel
theorem dev_eq_60 : Chain k0_dev60 k0_dev60_lt 29 := by decide +kernel
theorem dev_eq_61 : Chain k0_dev61 k0_dev61_lt 30 := by decide +kernel
theorem dev_eq_62 : Chain k0_dev62 k0_dev62_lt 31 := by decide +kernel

end Cert.KernelIdeal.Mean
-- ==== Proof.Sched.lean ====
import proofs.«900954_g7700000000000955_dist_mean_ax0_shard0_i_m512_n256_v7x_i32_bf16_1_alg».proof.Proof.Gen.KernelIdeal
import proofs.«900954_g7700000000000955_dist_mean_ax0_shard0_i_m512_n256_v7x_i32_bf16_1_alg».proof.Proof.Gen.KernelIdeal.Skeleton
import proofs.«900954_g7700000000000955_dist_mean_ax0_shard0_i_m512_n256_v7x_i32_bf16_1_alg».proof.Proof.Gen.KernelIdeal.Launch
import proofs.«900954_g7700000000000955_dist_mean_ax0_shard0_i_m512_n256_v7x_i32_bf16_1_alg».proof.Proof.Gen.KernelIdeal.Points
import proofs.«900954_g7700000000000955_dist_mean_ax0_shard0_i_m512_n256_v7x_i32_bf16_1_alg».proof.Proof.Spec
import proofs.«900954_g7700000000000955_dist_mean_ax0_shard0_i_m512_n256_v7x_i32_bf16_1_alg».proof.Proof.DevEq
import Idealize.ShloMosaic.Lib.Pipeline.Launch
import Idealize.ShloMosaic.Lib.Pipeline.Kit
import Idealize.ShloMosaic.Lib.Tactic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev xM : Memref sig .tc .vmem S512x256 .f32 := Memref.whole cc0_stg0_0
abbrev oM : Memref sig .tc .vmem S1x256 .f32 := Memref.whole cc0_stg1_0
abbrev aM : Memref sig .tc .vmem S32x256 .f32 := Memref.whole cc0_scratch0

theorem inb_row (j : Fin 32) : ∀ a, (![j.val, 0] : Fin 2 → Nat) a + S1x256.size a ≤ S32x256.size a := by
  revert j; decide

abbrev rowM (j : Fin 32) : Memref sig .tc .vmem S1x256 .f32 :=
  aM.slice (Rect.unit (s := S32x256) ![j.val, 0] S1x256.size (inb_row j)) (fun _ => rfl)

theorem inb_sem (k : Fin 32) : ∀ a, (![k.val] : Fin 1 → Nat) a + S1.size a ≤ S32.size a := by
  revert k; decide

abbrev barS : Sem sig := (SemArray.scalar (sig.barrier 0 rfl) : Sems sig S_).sem

abbrev sendS (k : Fin 32) : DmaSem sig :=
  ((cc0_scratch1.slice (Rect.unit (s := S32) ![k.val] S1.size (inb_sem k))).squeeze S_ squeezes_S1_S_).sem
abbrev recvS (j : Fin 32) : DmaSem sig :=
  ((cc0_scratch2.slice (Rect.unit (s := S32) ![j.val] S1.size (inb_sem j))).squeeze S_ squeezes_S1_S_).sem

abbrev barCell (c : Dev nD) : GSem nD τ sig := ((c : Thread nD τ), .reg barS)
abbrev sendCell (c : Dev nD) (k : Fin 32) : GSem nD τ sig := ((c : Thread nD τ), .dma (sendS k))
abbrev recvCell (c : Dev nD) (j : Fin 32) : GSem nD τ sig := ((c : Thread nD τ), .dma (recvS j))
/-- Send (`false`) or receive (`true`) semaphore `k`, and its cell on device `c`. -/
abbrev xS : Bool → Fin 32 → DmaSem sig
  | false => sendS
  | true => recvS
abbrev xCell (c : Dev nD) (b : Bool) (k : Fin 32) : GSem nD τ sig := ((c : Thread nD τ), .dma (xS b k))

abbrev N : ℕ := (rowM 0).view.dmaCredit

def dmaIx (q : DmaSem sig) : Option (Bool × Fin 32) :=
  if h : 3 ≤ q.val ∧ q.val < 34 then some (false, ⟨q.val - 2, by omega⟩)
  else if h : 35 ≤ q.val ∧ q.val < 66 then some (true, ⟨q.val - 34, by omega⟩) else none

def xstg (c : Dev nD) : (cc0_stg0_0 : Ref sig .tc).ty.Contents (Elt F) :=
  (win0_0.blk (0 : Fin 1)).view.read (Elt F) (m ((c : Thread nD τ).loc main_arg0))

def accF (c : Dev nD) : (cc0_scratch0 : Ref sig .tc).ty.Contents (Elt F) := accOf (xstg m) c
def outF (c : Dev nD) : (cc0_stg1_0 : Ref sig .tc).ty.Contents (Elt F) := outOf (xstg m) c

/-- The left half of a full share after `n` pieces have been cut off it; `piece k` is the `k`-th piece. -/
def remL : ℕ → PosShare TreeShare
  | 0 => fullShare.left
  | n + 1 => (remL n).right
def piece (k : ℕ) : PosShare TreeShare := (remL (k - 1)).left

abbrev keepQ : PosShare TreeShare := fullShare.right

def rowPts (c : Dev nD) (j : Fin 32) (q : PosShare TreeShare) (f : Buf (Elt F) ((c : Thread nD τ).loc cc0_scratch0)) : sProp 𝕄 :=
  ((c : Thread nD τ).loc cc0_scratch0) ↦[(rowM j).view.set]{q} f

def barPay (c : Dev nD) (j : Fin 32) : sProp 𝕄 :=
  iprop((∃ f, rowPts (sub c j) j fullShare f) ∗ reached ER (recvCell (sub c j) j) 0)
def recvPay (c : Dev nD) (j : Fin 32) : sProp 𝕄 := rowPts c j fullShare (accF m c)
def sendPay (c : Dev nD) (k : Fin 32) : sProp 𝕄 := rowPts c 0 (piece k.val) (accF m c)
def xPay (c : Dev nD) : Bool → Fin 32 → sProp 𝕄
  | false => sendPay m c
  | true => recvPay m c

theorem N_pos : 0 < N := View.dmaCredit_pos _ (by decide)

/-- All units come in round 0: cell `c`'s barrier duty `j` is paid by the device `j` places before `c`, its send and receive cells have one duty each, worth one row. -/
def meanRd : Rounds.Schedule (GSem nD τ sig) (Fin 32) 𝕄 where
  duties g r :=
    if r = 0 ∧ g.1.2 = .tc then
      (match g.2 with
        | .reg s => if s = barS then Finset.univ.erase 0 else ∅
        | .dma q => if (dmaIx q).isSome then {0} else ∅)
    else ∅
  amount g _ _ := match g.2 with | .reg _ => 1 | .dma _ => N
  payload g _ d := match g.2 with
    | .reg _ => barPay g.1.1 d
    | .dma q => match dmaIx q with
      | some (false, k) => sendPay m g.1.1 k
      | some (true, j) => recvPay m g.1.1 j
      | none => iprop(emp)
  amount_pos g _ _ _ := by
    cases g.2 with
    | reg _ => exact Nat.one_pos
    | dma _ => exact N_pos

abbrev K31 : Finset (Fin 32) := Finset.univ.erase 0

abbrev above (i : ℕ) : Finset (Fin 32) := Finset.univ.filter fun k : Fin 32 => i < k.val

/-- What device `c` still owes after its first `i` signals, and after its first `i` copies. -/
def Osig (c : Dev nD) (i : ℕ) : CellTallies nD τ sig Unit := ∑ k ∈ above i, tallyAt (barCell (add c k)) () 1

def Osend (c : Dev nD) (i : ℕ) : CellTallies nD τ sig Unit := ∑ k ∈ above i, tallyAt (recvCell (add c k) (neg k)) () N
def O₀ (c : Dev nD) : CellTallies nD τ sig Unit := Osend c 0 + Osig c 0

def L (g : GSem nD τ sig) : Finset Unit := if g.1.2 = .tc then {()} else ∅

/-- Receive cells lie above barrier cells, and those above everything else: a wait is always below what its waiter owes. -/
def lv (g : GSem nD τ sig) (_ : Unit) : ℕ :=
  match g.2 with
  | .reg _ => 1
  | .dma q => match dmaIx q with
    | some (true, _) => 2
    | _ => 0

end Cert.KernelIdeal.Mean

end
-- ==== Proof.Data.lean ====
import proofs.«900954_g7700000000000955_dist_mean_ax0_shard0_i_m512_n256_v7x_i32_bf16_1_alg».proof.Proof.Sched

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

inductive CK where
  | bar
  | send (k : Fin 32)
  | recv (j : Fin 32)
  deriving DecidableEq, Fintype

def CK.ok : CK → Prop
  | .bar => True
  | .send k => k ≠ 0
  | .recv j => j ≠ 0
instance : DecidablePred CK.ok := fun x => by cases x <;> unfold CK.ok <;> infer_instance

abbrev csem : CK → SemLoc sig
  | .bar => .reg barS
  | .send k => .dma (sendS k)
  | .recv j => .dma (recvS j)
abbrev xCK : Bool → Fin 32 → CK
  | false => .send
  | true => .recv
abbrev kcell (ck : Dev nD × CK) : GSem nD τ sig := ((ck.1 : Thread nD τ), csem ck.2)

abbrev allCells : Finset (Dev nD × CK) := Finset.univ.filter fun ck => ck.2.ok

/-- Every cell's invariant and round-0 mark: persistent, shared by all devices. -/
def records (K : Dev nD × CK → ℕ) : sProp 𝕄 :=
  iprop((bigSep allCells fun ck => cellInv ER (meanRd m) (K ck) (kcell ck))
    ∗ bigSep allCells fun ck => reached ER (kcell ck) 0)

instance records_persistent (K : Dev nD × CK → ℕ) : BI.Persistent (records m K) := by unfold records; infer_instance

def positions (c : Dev nD) : sProp 𝕄 :=
  iprop(atPos ER (barCell c) 0 ∅ 0
    ∗ (bigSep K31 fun k => atPos ER (sendCell c k) 0 ∅ 0) ∗ (bigSep K31 fun j => atPos ER (recvCell c j) 0 ∅ 0))

def payToks (c : Dev nD) : sProp 𝕄 :=
  iprop((bigSep K31 fun k => dutyTok ER (barCell (add c k)) 0 k)
    ∗ (bigSep K31 fun k => dutyTok ER (recvCell (add c k) (neg k)) 0 0)
    ∗ (bigSep K31 fun k => dutyTok ER (sendCell c k) 0 0))

def spare (c : Dev nD) : sProp 𝕄 := iprop(semVal (sendCell c 0) 0 ∗ semVal (recvCell c 0) 0)

def ghost (K : Dev nD × CK → ℕ) (c : Dev nD) : sProp 𝕄 :=
  iprop(records m K ∗ positions c ∗ payToks c ∗ spare c)

def creds (c : Dev nD) : sProp 𝕄 :=
  iprop(cred (tallyAt (barCell c) () 31) ∗ bigSep K31 fun j => cred (tallyAt (recvCell c j) () N))

def start (c : Dev nD) : sProp 𝕄 := iprop((∃ K, ghost m K c) ∗ creds c ∗ levAts L lv)

def scratchAny (c : Dev nD) : sProp 𝕄 :=
  iprop(∃ f : Buf (Elt F) ((c : Thread nD τ).loc cc0_scratch0), ((c : Thread nD τ).loc cc0_scratch0) ↦{fullShare} f)

def Φ₀ (c : Dev nD) : sProp 𝕄 := iprop(start m c ∗ scratchAny c)

def Φ₁ (c : Dev nD) : sProp 𝕄 :=
  iprop(scratchAny c ∗ (bigSep Finset.univ fun k : Fin 32 => semVal (sendCell c k) 0) ∗ bigSep Finset.univ fun j : Fin 32 => semVal (recvCell c j) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What a device holds before its body, and after it. -/
def bodyPre (K : Dev nD × CK → ℕ) (c : Dev nD) : sProp 𝕄 :=
  iprop((ghost m K c ∗ creds c ∗ levAts L lv ∗ scratchAny c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outF m c))

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Cert.KernelIdeal.Mean

end
-- ==== Proof.Tables.lean ====
import proofs.«900954_g7700000000000955_dist_mean_ax0_shard0_i_m512_n256_v7x_i32_bf16_1_alg».proof.Proof.Sched

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem sendS_val (k : Fin 32) : (sendS k).val = 2 + k.val := by revert k; decide
theorem recvS_val (j : Fin 32) : (recvS j).val = 34 + j.val := by revert j; decide
theorem dmaIx_send (k : Fin 32) (hk : k ≠ 0) : dmaIx (sendS k) = some (false, k) := by revert k; decide
theorem dmaIx_recv (j : Fin 32) (hj : j ≠ 0) : dmaIx (recvS j) = some (true, j) := by revert j; decide

theorem credit_row (j : Fin 32) : (rowM j).view.dmaCredit = N := by revert j; decide

theorem duties_bar (c : Dev nD) : (meanRd (F := F) m).duties (barCell c) 0 = K31 := by
  dsimp only [meanRd]; rw [if_pos ⟨rfl, rfl⟩]; exact if_pos rfl
theorem duties_send (c : Dev nD) (k : Fin 32) (hk : k ≠ 0) : (meanRd (F := F) m).duties (sendCell c k) 0 = {0} := by
  dsimp only [meanRd]; rw [if_pos ⟨rfl, rfl⟩, dmaIx_send k hk]; rfl
theorem duties_recv (c : Dev nD) (j : Fin 32) (hj : j ≠ 0) : (meanRd (F := F) m).duties (recvCell c j) 0 = {0} := by
  dsimp only [meanRd]; rw [if_pos ⟨rfl, rfl⟩, dmaIx_recv j hj]; rfl
theorem duties_later (g : GSem nD τ sig) : ∀ r, 1 ≤ r → (meanRd (F := F) m).duties g r = ∅ :=
  fun r hr => by dsimp only [meanRd]; rw [if_neg fun h => by omega]

theorem amount_bar (c : Dev nD) (d : Fin 32) : (meanRd (F := F) m).amount (barCell c) 0 d = 1 := rfl
theorem amount_send (c : Dev nD) (k d : Fin 32) : (meanRd (F := F) m).amount (sendCell c k) 0 d = N := rfl
theorem amount_recv (c : Dev nD) (j d : Fin 32) : (meanRd (F := F) m).amount (recvCell c j) 0 d = N := rfl

theorem expect_bar (c : Dev nD) : (meanRd (F := F) m).expect (barCell c) 0 = 31 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
theorem expect_send (c : Dev nD) (k : Fin 32) (hk : k ≠ 0) : (meanRd (F := F) m).expect (sendCell c k) 0 = N := by
  unfold Schedule.expect Schedule.amountOf; rw [duties_send m c k hk, Finset.sum_singleton, amount_send]
theorem expect_recv (c : Dev nD) (j : Fin 32) (hj : j ≠ 0) : (meanRd (F := F) m).expect (recvCell c j) 0 = N := by
  unfold Schedule.expect Schedule.amountOf; rw [duties_recv m c j hj, Finset.sum_singleton, amount_recv]

theorem payload_bar (c : Dev nD) (j : Fin 32) : (meanRd (F := F) m).payload (barCell c) 0 j = barPay c j := rfl
theorem payload_send (c : Dev nD) (k : Fin 32) (hk : k ≠ 0) (d : Fin 32) : (meanRd (F := F) m).payload (sendCell c k) 0 d = sendPay m c k := by
  dsimp only [meanRd]; rw [dmaIx_send k hk]
theorem payload_recv (c : Dev nD) (j : Fin 32) (hj : j ≠ 0) (d : Fin 32) : (meanRd (F := F) m).payload (recvCell c j) 0 d = recvPay m c j := by
  dsimp only [meanRd]; rw [dmaIx_recv j hj]

instance meanRd_payload_storable (g : GSem nD τ sig) (r : ℕ) (d : Fin 32) :
    BI.Storable (upEmb : UEmb _ 𝕄) ((meanRd (F := F) m).payload g r d) := by
  obtain ⟨p, s | q⟩ := g
  · show BI.Storable upEmb (barPay p.1 d)
    unfold barPay rowPts; infer_instance
  · show BI.Storable upEmb (match dmaIx q with
      | some (false, k) => sendPay m p.1 k
      | some (true, j) => recvPay m p.1 j
      | none => iprop(emp))
    unfold sendPay recvPay rowPts
    split <;> infer_instance

theorem above_pred (k : Fin 32) (hk : k ≠ 0) : above (k.val - 1) = insert k (above k.val) := by
  have hk' : 0 < k.val := Nat.pos_of_ne_zero fun h => hk (Fin.ext h)
  ext x
  rw [Finset.mem_insert, Finset.mem_filter, Finset.mem_filter, Fin.ext_iff]
  constructor
  · rintro ⟨_, h⟩
    by_cases hx : x.val = k.val
    · exact Or.inl hx
    · exact Or.inr ⟨Finset.mem_univ _, by omega⟩
  · rintro (h | ⟨_, h⟩)
    · exact ⟨Finset.mem_univ _, by omega⟩
    · exact ⟨Finset.mem_univ _, by omega⟩
theorem not_mem_above (k : Fin 32) : k ∉ above k.val := fun h => Nat.lt_irrefl _ (Finset.mem_filter.mp h).2

theorem above_31 : above 31 = ∅ := Finset.filter_eq_empty_iff.mpr fun x _ => by have := x.isLt; omega
theorem ne_zero_of_mem_above {i : ℕ} {k : Fin 32} (h : k ∈ above i) : k ≠ 0 := fun h0 => by
  have := (Finset.mem_filter.mp h).2; rw [h0] at this; exact Nat.not_lt_zero _ this

theorem Osig_peel (c : Dev nD) (k : Fin 32) (hk : k ≠ 0) : Osig c (k.val - 1) = Osig c k.val + tallyAt (barCell (add c k)) () 1 := by
  unfold Osig; rw [above_pred k hk, Finset.sum_insert (not_mem_above k), add_comm]
theorem Osend_peel (c : Dev nD) (k : Fin 32) (hk : k ≠ 0) : Osend c (k.val - 1) = Osend c k.val + tallyAt (recvCell (add c k) (neg k)) () N := by
  unfold Osend; rw [above_pred k hk, Finset.sum_insert (not_mem_above k), add_comm]
theorem Osig_done (c : Dev nD) : Osig c 31 = 0 := by unfold Osig; rw [above_31, Finset.sum_empty]
theorem Osend_done (c : Dev nD) : Osend c 31 = 0 := by unfold Osend; rw [above_31, Finset.sum_empty]

theorem L_tc (c : Dev nD) (sm : SemLoc sig) : L ((c : Thread nD τ), sm) = {()} := if_pos rfl

theorem Osig_pos {c : Dev nD} {i : ℕ} {g : GSem nD τ sig} {u : Unit} (h : 0 < Osig c i g u) :
    ∃ k : Fin 32, k ≠ 0 ∧ g = barCell (add c k) := by
  unfold Osig at h
  rw [Finset.sum_apply, Finsupp.finset_sum_apply] at h
  by_contra hn
  rw [Finset.sum_eq_zero fun k hk => by
    rw [tallyAt_apply, if_neg fun h' => hn ⟨k, ne_zero_of_mem_above hk, h'.1⟩]] at h
  exact Nat.lt_irrefl 0 h

theorem Osend_pos {c : Dev nD} {i : ℕ} {g : GSem nD τ sig} {u : Unit} (h : 0 < Osend c i g u) :
    ∃ k : Fin 32, k ≠ 0 ∧ g = recvCell (add c k) (neg k) := by
  unfold Osend at h
  rw [Finset.sum_apply, Finsupp.finset_sum_apply] at h
  by_contra hn
  rw [Finset.sum_eq_zero fun k hk => by
    rw [tallyAt_apply, if_neg fun h' => hn ⟨k, ne_zero_of_mem_above hk, h'.1⟩]] at h
  exact Nat.lt_irrefl 0 h

theorem lv_bar (c : Dev nD) : lv (barCell c) () = 1 := rfl
theorem lv_recv (c : Dev nD) (j : Fin 32) (hj : j ≠ 0) : lv (recvCell c j) () = 2 := by
  dsimp only [lv]; rw [dmaIx_recv j hj]
theorem lv_stage (c : Dev nD) (q : DmaSem sig) (hq : ∀ j, dmaIx q ≠ some (true, j)) : lv ((c : Thread nD τ), .dma q) () = 0 := by
  dsimp only [lv]
  split
  · exact absurd ‹_› (hq _)
  · rfl

theorem Osend_lv {c : Dev nD} {i : ℕ} {g : GSem nD τ sig} {u : Unit} (h : 0 < Osend c i g u) : u ∈ L g ∧ lv g u = 2 := by
  cases u
  obtain ⟨k, hk, rfl⟩ := Osend_pos h
  exact ⟨by rw [L_tc]; exact Finset.mem_singleton_self _, lv_recv _ _ (neg_ne_zero k hk)⟩

theorem Osig_lv {c : Dev nD} {i : ℕ} {g : GSem nD τ sig} {u : Unit} (h : 0 < Osig c i g u) : u ∈ L g ∧ lv g u = 1 := by
  cases u
  obtain ⟨k, hk, rfl⟩ := Osig_pos h
  exact ⟨by rw [L_tc]; exact Finset.mem_singleton_self _, lv_bar _⟩

theorem O₀_lv {c : Dev nD} {g : GSem nD τ sig} {u : Unit} (h : 0 < O₀ c g u) : u ∈ L g ∧ 0 < lv g u := by
  unfold O₀ at h
  rw [Pi.add_apply, Finsupp.add_apply] at h
  by_cases h1 : 0 < Osend c 0 g u
  · obtain ⟨hL, hl⟩ := Osend_lv h1; exact ⟨hL, by rw [hl]; decide⟩
  · obtain ⟨hL, hl⟩ := Osig_lv (c := c) (i := 0) (g := g) (u := u) (by omega); exact ⟨hL, by rw [hl]; decide⟩

theorem mayWait_stage (c : Dev nD) (q : DmaSem sig) (hq : ∀ j, dmaIx q ≠ some (true, j)) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => (O₀_lv hg).1)
      (fun p hp => by rw [Finset.mem_singleton.mp hp, lv_stage c q hq])
      (fun g u hg => (O₀_lv hg).2)
  · rw [MayWait_zero]; iintro -; iempintro

theorem mayWait_bar (c : Dev nD) :
    (levAts L lv : sProp 𝕄) ⊢ MayWait (c : Thread nD τ) (.reg barS) () (Osend c 0) :=
  MayOwe.of_cut (L := L) (lev := lv) 1
    (fun p hp => by rw [Finset.mem_singleton.mp hp, L_tc]; exact Finset.mem_singleton_self _)
    (fun g u hg => (Osend_lv hg).1)
    (fun p hp => by rw [Finset.mem_singleton.mp hp]; exact le_of_eq (lv_bar c))
    (fun g u hg => by rw [(Osend_lv hg).2]; decide)

end Cert.KernelIdeal.Mean

end
-- ==== Proof.Mem.lean ====
import proofs.«900954_g7700000000000955_dist_mean_ax0_shard0_i_m512_n256_v7x_i32_bf16_1_alg».proof.Proof.Sched
import Idealize.ShloMosaic.Lib.Pipeline.Value

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem row_set (j : Fin 32) : (rowM j).view.set
    = (Rect.unit (s := S32x256) ![j.val, 0] S1x256.size (inb_row j)).set := by
  show ((View.whole cc0_scratch0).slice _).set = _
  exact View.set_slice_whole _ _

theorem mem_row (j : Fin 32) (i : S32x256.Idx) :
    i ∈ (rowM j).view.set ↔ (i 0).val = j.val := by
  rw [row_set, Rect.mem_set_unit]
  constructor
  · intro h
    have h0 := h 0
    simp at h0
    omega
  · intro h a
    fin_cases a
    · simp
      omega
    · simp
      exact (i 1).isLt

abbrev rowK (c : Dev nD) (j : Fin 32) : Finset (Idx ((c : Thread nD τ).loc cc0_scratch0)) :=
  (rowM j).view.set

theorem mem_rowK (c : Dev nD) (j : Fin 32) (i : Idx ((c : Thread nD τ).loc cc0_scratch0)) :
    i ∈ rowK c j ↔ (i 0).val = j.val := mem_row j i

theorem rows_cover (c : Dev nD) : (Finset.univ : Finset (Idx ((c : Thread nD τ).loc cc0_scratch0)))
    = Finset.univ.biUnion (rowK c) := by
  ext i
  simp only [Finset.mem_univ, Finset.mem_biUnion, true_and, true_iff]
  exact ⟨⟨(i 0).val, (i 0).isLt⟩, (mem_rowK c _ i).mpr rfl⟩

theorem rows_disjoint (c : Dev nD) (j j' : Fin 32) (h : j ≠ j') : Disjoint (rowK c j) (rowK c j') := by
  rw [Finset.disjoint_left]
  intro i hi hi'
  rw [mem_rowK] at hi hi'
  exact h (Fin.ext (hi.symm.trans hi'))

/-- The 32 rows partition the array. -/
theorem rows_split (c : Dev nD) (q : PosShare TreeShare) (f : Buf (Elt F) ((c : Thread nD τ).loc cc0_scratch0)) :
    ((((c : Thread nD τ).loc cc0_scratch0) ↦{q} f : sProp 𝕄)) ⊣⊢ bigSep Finset.univ (fun j : Fin 32 => rowPts c j q f) := by
  show _ ⊣⊢ bigSep Finset.univ (fun j : Fin 32 => (((c : Thread nD τ).loc cc0_scratch0) ↦[rowK c j]{q} f : sProp 𝕄))
  refine BiEntails.of_eq ?_
  rw [rows_cover c]
  exact pointsTo_biUnion Finset.univ (rowK c) (fun j _ j' _ hne => rows_disjoint c j j' hne)

theorem row_congr (c : Dev nD) (j : Fin 32) (q : PosShare TreeShare) (f g : Buf (Elt F) ((c : Thread nD τ).loc cc0_scratch0))
    (h : ∀ i ∈ (rowM j).view.set, f i = g i) :
    (rowPts c j q f : sProp 𝕄) ⊢ rowPts c j q g := by
  unfold rowPts
  exact Entails.of_eq (pointsTo_congr h)

theorem row_halves (c : Dev nD) (j : Fin 32) (q : PosShare TreeShare) (f : Buf (Elt F) ((c : Thread nD τ).loc cc0_scratch0)) :
    (rowPts c j q f : sProp 𝕄) ⊣⊢ iprop(rowPts c j q.left f ∗ rowPts c j q.right f) := by
  unfold rowPts
  exact pointsTo_share (PosShare.mem_left_op_right q)

/-- The left half is its first `n` pieces and the rest, by induction on `n`. -/
theorem left_chain (c : Dev nD) (j : Fin 32) (f : Buf (Elt F) ((c : Thread nD τ).loc cc0_scratch0)) (n : ℕ) (hn : n ≤ 31) :
    (rowPts c j fullShare.left f : sProp 𝕄) ⊣⊢
      iprop(rowPts c j (remL n) f ∗ bigSep (Finset.univ.filter fun k : Fin 32 => 1 ≤ k.val ∧ k.val ≤ n) (fun k => rowPts c j (piece k.val) f)) := by
  induction n with
  | zero =>
    have he : (Finset.univ.filter fun k : Fin 32 => 1 ≤ k.val ∧ k.val ≤ 0) = ∅ := by
      ext k
      simp only [Finset.mem_filter, Finset.mem_univ, true_and, Finset.notMem_empty, iff_false]
      omega
    rw [he, bigSep_empty]
    exact ⟨BI.sep_emp_intro, BI.sep_emp_elim⟩
  | succ n ih =>
    have hlt : n + 1 < 32 := by omega
    have hins : (Finset.univ.filter fun k : Fin 32 => 1 ≤ k.val ∧ k.val ≤ n + 1)
        = insert (⟨n + 1, hlt⟩ : Fin 32) (Finset.univ.filter fun k : Fin 32 => 1 ≤ k.val ∧ k.val ≤ n) := by
      ext k
      simp only [Finset.mem_filter, Finset.mem_univ, true_and, Finset.mem_insert, Fin.ext_iff]
      omega
    have hnot : (⟨n + 1, hlt⟩ : Fin 32) ∉ (Finset.univ.filter fun k : Fin 32 => 1 ≤ k.val ∧ k.val ≤ n) := by
      simp only [Finset.mem_filter, Finset.mem_univ, true_and]
      omega
    rw [hins, bigSep_insert hnot]
    show _ ⊣⊢ iprop(rowPts c j (remL (n + 1)) f ∗ rowPts c j (piece (n + 1)) f
      ∗ bigSep (Finset.univ.filter fun k : Fin 32 => 1 ≤ k.val ∧ k.val ≤ n) (fun k => rowPts c j (piece k.val) f))
    refine (ih (by omega)).trans ?_
    have hh := row_halves (F := F) c j (remL n) f
    refine ⟨?_, ?_⟩
    · iintro ⟨H, B⟩
      ihave H' := hh.1 $$ H
      icases H' with ⟨Hl, Hr⟩
      isplitl [Hr]
      · iexact Hr
      · isplitl [Hl]
        · iexact Hl
        · iexact B
    · iintro ⟨Hr, Hl, B⟩
      isplitr [B]
      · iapply hh.2
        isplitl [Hl]
        · iexact Hl
        · iexact Hr
      · iexact B

theorem accF_apply (c : Dev nD) (i : S32x256.Idx) :
    accF m c i = k0_pay1 (xstg m (add c (i 0))) (ValueIdx.ix2 (0 : Fin 1) (i 1)) := rfl

private theorem add_of_val_zero (c : Dev nD) (k : Fin 32) (hk : k.val = 0) : add c k = c := by
  have : k = 0 := Fin.ext hk
  subst this
  exact add_zero c

private theorem add_of_val_eq (c : Dev nD) (k j : Fin 32) (hk : k.val = j.val) : add c k = add c j := by
  have : k = j := Fin.ext hk
  subst this
  rfl

theorem row_emb_one (j : Fin 32) (y : S1x256.Idx) :
    ((rowM j).view.emb y 1).val = (y 1).val := by
  show ((Rect.unit (s := S32x256) ![j.val, 0] S1x256.size (inb_row j)).emb y 1 : Nat) = _
  rw [Rect.emb_apply]
  simp

theorem stored_row0 (c : Dev nD) (f : Buf (Elt F) ((c : Thread nD τ).loc cc0_scratch0)) (i : S32x256.Idx)
    (hi : i ∈ (rowM 0).view.set) :
    (aM.access (Rect.unit (s := S32x256) ![0, 0] S1x256.size inb_S32x256_S1x256_0_0) : View sig .tc _ _ _).write (Elt F) f (k0_pay1 (xstg m c)) Finset.univ i
      = accF m c i := by
  have h0 : (i 0).val = 0 := (mem_row 0 i).mp hi
  obtain ⟨y, rfl⟩ := View.exists_emb_of_mem_set
    (aM.access (Rect.unit (s := S32x256) ![0, 0] S1x256.size inb_S32x256_S1x256_0_0) : View sig .tc _ _ _) hi
  rw [View.write_emb_of_mem _ _ (Finset.mem_univ y), cast_eq, accF_apply, add_of_val_zero c _ h0]
  congr 1
  funext a
  fin_cases a
  · refine Fin.ext ?_
    have := (y 0).isLt
    simp at this ⊢
    exact this
  · refine Fin.ext ?_
    show (y 1).val = ((Rect.unit (s := S32x256) ![0, 0] S1x256.size inb_S32x256_S1x256_0_0).emb y 1 : Nat)
    rw [Rect.emb_apply]
    simp

/-- Row 0 of the device `j` places after `c`, written into row `j` of `c`, gives that row of `accF m c`. -/
theorem landed_row (c d : Dev nD) (j : Fin 32) (hd : d = add c j) (fd : Buf (Elt F) ((c : Thread nD τ).loc cc0_scratch0)) (i : S32x256.Idx)
    (hi : i ∈ (rowM j).view.set) :
    (rowM j).view.write (Elt F) fd ((rowM 0).view.read (Elt F) (accF m d)) Finset.univ i
      = accF m c i := by
  have h0 : (i 0).val = j.val := (mem_row j i).mp hi
  obtain ⟨y, rfl⟩ := View.exists_emb_of_mem_set (rowM j).view hi
  have hz : ((rowM 0).view.emb y 0).val = 0 :=
    (mem_row 0 _).mp (View.emb_mem_set _ y)
  have e1 : (rowM 0).view.emb y 1 = (rowM j).view.emb y 1 :=
    Fin.ext ((row_emb_one 0 y).trans (row_emb_one j y).symm)
  rw [View.write_emb_of_mem _ _ (Finset.mem_univ y), View.read_apply, cast_cast, cast_eq, accF_apply, accF_apply,
    add_of_val_zero d _ hz, add_of_val_eq c _ j h0, ← hd, e1]

private theorem off00 : (![0, 0] : Fin 2 → Nat) = fun _ => 0 := funext fun a => by fin_cases a <;> rfl

theorem read_acc (f : (cc0_scratch0 : Ref sig .tc).ty.Contents (Elt F)) :
    aM.view.readAt (Elt F) (Rect.unit (s := S32x256) ![0, 0] S32x256.size inb_S32x256_S32x256_0_0).toLoadRect f = f :=
  Memref.readAt_unit_zero (Elt F) cc0_scratch0 off00 _ f
theorem read_x (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 off00 _ f
theorem write_out (f w : (cc0_stg1_0 : Ref sig .tc).ty.Contents (Elt F)) :
    (oM.access (Rect.unit (s := S1x256) ![0, 0] S1x256.size inb_S1x256_S1x256_0_0) : View sig .tc _ _ _).write (Elt F) f w Finset.univ = w :=
  Memref.write_access_unit_zero_univ (Elt F) cc0_stg1_0 off00 _ f w

end Cert.KernelIdeal.Mean

end
-- ==== Proof.Steps.lean ====
import proofs.«900954_g7700000000000955_dist_mean_ax0_shard0_i_m512_n256_v7x_i32_bf16_1_alg».proof.Proof.Data
import proofs.«900954_g7700000000000955_dist_mean_ax0_shard0_i_m512_n256_v7x_i32_bf16_1_alg».proof.Proof.Tables
import proofs.«900954_g7700000000000955_dist_mean_ax0_shard0_i_m512_n256_v7x_i32_bf16_1_alg».proof.Proof.Mem

open Idealize.ShloMosaic.Tactic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

theorem inv_at (ck : Dev nD × CK) (h : ck.2.ok) :
    (records m K : sProp 𝕄) ⊢ cellInv ER (meanRd m) (K ck) (kcell ck) := by
  have h1 : (bigSep allCells fun ck => cellInv ER (meanRd m) (K ck) (kcell ck) : sProp 𝕄)
      ⊢ cellInv ER (meanRd m) (K ck) (kcell ck) :=
    bigSep_elim (Finset.mem_filter.mpr ⟨Finset.mem_univ ck, h⟩)
  unfold records
  iintro ⟨H, -⟩
  iapply h1 $$ H

theorem reached_at (ck : Dev nD × CK) (h : ck.2.ok) :
    (records m K : sProp 𝕄) ⊢ reached ER (kcell ck) 0 := by
  have h1 : (bigSep allCells fun ck => reached ER (kcell ck) 0 : sProp 𝕄) ⊢ reached ER (kcell ck) 0 :=
    bigSep_elim (Finset.mem_filter.mpr ⟨Finset.mem_univ ck, h⟩)
  unfold records
  iintro ⟨-, H⟩
  iapply h1 $$ H

theorem payload_sig (c : Dev nD) (k : Fin 32) :
    (meanRd (F := F) m).payload (barCell (add c k)) 0 k
      = iprop((∃ f, (((c : Thread nD τ).loc cc0_scratch0) ↦[(rowM k).view.set]{fullShare} f : sProp 𝕄))
          ∗ reached ER (recvCell c k) 0) := by
  rw [payload_bar]; unfold barPay rowPts; rw [sub_add]

attribute [local sl_rounds] duties_bar duties_send duties_recv amount_bar amount_send amount_recv payload_sig
  payload_send payload_recv expect_bar expect_send expect_recv

/-- Signal `k` pays duty `k` of the barrier cell of the device `k` places on and hands over row `k`. -/
theorem step_signal (c n : Dev nD) (k : Fin 32) (hk : k ≠ 0) (hn : n = add c k)
    {α : Type} {Q : α → sProp 𝕄} {cont : PUnit → Prog (TpuEff nD τ sig (Elt F) Λ₀ .tc) α}
    (O : CellTallies nD τ sig Unit) (W : Waits sig Unit) :
    iprop(records m K ∗ owes (c : Thread nD τ) (O + tallyAt (barCell (add c k)) () 1) W
        ∗ dutyTok ER (barCell (add c k)) 0 k ∗ (∃ f, rowPts c k fullShare f))
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ
              (.op (.semSignal (Dev.tc n : Thread nD τ) barS (1#32 : BitVec 32).toNat) cont) Q) := by
  subst hn
  have hI : (records m K : sProp 𝕄) ⊢ cellInv ER (meanRd m) (K (add c k, .bar)) (barCell (add c k)) :=
    inv_at m K (add c k, .bar) trivial
  have hr : (records m K : sProp 𝕄) ⊢ reached ER (barCell (add c k)) 0 := reached_at m K (add c k, .bar) trivial
  have hrV : (records m K : sProp 𝕄) ⊢ reached ER (recvCell c k) 0 := reached_at m K (c, .recv k) hk
  unfold rowPts
  iintro ⟨#Hrec, HO, Htok, ⟨%f, Hrow⟩⟩ Hk
  ihave #HI := hI $$ Hrec
  ihave #Hr := hr $$ Hrec
  ihave #HrV := hrV $$ Hrec

  sl_exec
  iapply Hk
  iexact HO

attribute [local sl_rounds] payload_bar

/-- The barrier wait takes all of round 0: the 31 rows the copies will land in come back. -/
theorem step_barwait (c : Dev nD)
    {α : Type} {Q : α → sProp 𝕄} {cont : PUnit → Prog (TpuEff nD τ sig (Elt F) Λ₀ .tc) α} (W : Waits sig Unit) :
    iprop(records m K ∗ cred (tallyAt (barCell c) () 31) ∗ owes (c : Thread nD τ) (Osend c 0) W ∗ levAts L lv
        ∗ atPos ER (barCell c) 0 ∅ 0)
      ⊢ iprop(((owes (c : Thread nD τ) (Osend c 0) (insert (SemLoc.reg barS, ()) W) ∗ bigSep K31 (fun j => barPay (F := F) c j))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.semWait barS (31#32 : BitVec 32).toNat) cont) Q) := by
  have hI : (records m K : sProp 𝕄) ⊢ cellInv ER (meanRd m) (K (c, .bar)) (barCell c) := inv_at m K (c, .bar) trivial
  have hmw : (levAts L lv : sProp 𝕄) ⊢ MayWait (c : Thread nD τ) (.reg barS) () (Osend c 0) := mayWait_bar c
  iintro ⟨#Hrec, HcB, HO, Hlev, HatB⟩ Hk
  ihave #HI := hI $$ Hrec

  sl_exec
  iapply Hk
  iframe HO HatB_pay1

/-- Copy `k` pays the own send cell `k` and receive cell `32 - k` of the device `k` places on. -/
theorem step_send (c n : Dev nD) (k : Fin 32) (hk : k ≠ 0) (hn : n = add c k)
    {hsc : (rowM (neg k) : Memref sig (Dev.tc n : Thread nD τ).2.kind .vmem S1x256 .f32).view.ref.isScScratch = false}
    {hsrc : (rowM 0).view.WordExact} {hdst : (rowM (neg k)).view.WordExact}
    {hsem : DmaTarget.Typed .vmem (.dma (recvS (neg k))) (.remote (Dev.tc n : Thread nD τ) (rowM (neg k)) (.dma (sendS k)) hsc)}
    {α : Type} {Q : α → sProp 𝕄} {cont : PUnit → Prog (TpuEff nD τ sig (Elt F) Λ₀ .tc) α}
    (fd : Buf (Elt F) ((add c k : Thread nD τ).loc cc0_scratch0)) (O : CellTallies nD τ sig Unit) (W : Waits sig Unit) :
    iprop(records m K ∗ rowPts c 0 (piece k.val) (accF m c) ∗ rowPts (add c k) (neg k) fullShare fd
        ∗ owes (c : Thread nD τ) (O + tallyAt (recvCell (add c k) (neg k)) () N) W
        ∗ dutyTok ER (sendCell c k) 0 0 ∗ dutyTok ER (recvCell (add c k) (neg k)) 0 0)
      ⊢ iprop(((cred (tallyAt (sendCell c k) () N) ∗ owes (c : Thread nD τ) O W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (rowM 0) (.remote (Dev.tc n : Thread nD τ) (rowM (neg k)) (.dma (sendS k)) hsc) (.dma (recvS (neg k))) hsrc hdst hsem) cont) Q) := by
  subst hn
  have hk' : neg k ≠ 0 := neg_ne_zero k hk
  iintro ⟨#Hrec, Hsrc, Hdst, HO, HtS, HtV⟩
  ihave HIs := (inv_at m K (c, .send k) hk) $$ Hrec
  ihave HIr := (inv_at m K (add c k, .recv (neg k)) hk') $$ Hrec
  ihave HrS := (reached_at m K (c, .send k) hk) $$ Hrec
  ihave HrV := (reached_at m K (add c k, .recv (neg k)) hk') $$ Hrec
  unfold rowPts

  iapply (Rounds.wp_send_pointsTo 𝒱₀ ER (meanRd m) (c : Thread nD τ) none (c' := (add c k : Thread nD τ))
      (src := rowM 0) (dst := rowM (neg k)) (sS := .dma (sendS k)) (sem := .dma (recvS (neg k)))
      (q := piece k.val) (fs := accF m c) (fd := fd)
      (κ₁ := K (c, .send k)) (κ₂ := K (add c k, .recv (neg k))) (r₁ := 0) (r₂ := 0) (d₁ := 0) (d₂ := 0)
      (by rw [duties_send m c k hk]; exact Finset.mem_singleton_self _)
      (by rw [duties_recv m (add c k) (neg k) hk']; exact Finset.mem_singleton_self _)
      () () N (credit_row (neg k)) (amount_send m c k 0) (amount_recv m (add c k) (neg k) 0) O rfl (W := W)
      (by rw [payload_send m c k hk]; exact BI.Entails.refl _)
      (by

        rw [payload_recv m (add c k) (neg k) hk']
        exact row_congr (add c k) (neg k) fullShare _ _
          (fun i hi => landed_row m (add c k) c (neg k) (add_add_neg c k).symm fd i hi))) $$ [Hsrc Hdst HO HtS HtV]
  iframe HIs HIr Hsrc Hdst HO HtS HrS HtV HrV

theorem inv_x (c : Dev nD) (b : Bool) (k : Fin 32) (hk : k ≠ 0) :
    (records m K : sProp 𝕄) ⊢ cellInv ER (meanRd m) (K (c, xCK b k)) (xCell c b k) := by
  cases b <;> exact inv_at m K (c, _) hk

/-- A wait for a whole one-duty round returns the duty's payload: row `k` filled, or piece `k` of row 0. -/
theorem step_wait (c : Dev nD) (b : Bool) (k : Fin 32) (hk : k ≠ 0)
    {sp sp' : Space} {s s' : Shape} {e e' : EltTy} {src : Memref sig .tc sp' s' e'} {κ' : Kind} {dst : Memref sig κ' sp s e}
    {hsrc : src.view.WordExact} {hdst : dst.view.WordExact} (hdc : dst.view.dmaCredit = N)
    {α : Type} {Q : α → sProp 𝕄} {cont : PUnit → Prog (TpuEff nD τ sig (Elt F) Λ₀ .tc) α} (W : Waits sig Unit) :
    iprop(records m K ∗ cred (tallyAt (xCell c b k) () N) ∗ owes (c : Thread nD τ) 0 W ∗ atPos ER (xCell c b k) 0 ∅ 0)
      ⊢ iprop(((owes (c : Thread nD τ) 0 (insert (SemLoc.dma (xS b k), ()) W) ∗ atPos ER (xCell c b k) 1 ∅ 0 ∗ xPay m c b k)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (xS b k) src dst hsrc hdst) cont) Q) := by
  have hI := inv_x m K c b k hk
  rw [← hdc]
  cases b <;> dsimp only [xCell, xS, xCK, xPay] at hI ⊢ <;>
  · iintro ⟨#Hrec, Hc, HO, Hat⟩ Hk
    ihave #HI := hI $$ Hrec
    sl_exec
    first | unfold sendPay | unfold recvPay
    iapply Hk
    iframe HO Hat Hat_pay1

theorem close_x (c : Dev nD) (b : Bool) (k : Fin 32) (hk : k ≠ 0) :
    iprop(records m K ∗ atPos ER (xCell c b k) 1 ∅ 0) ⊢ (|={Set.univ}=> semVal (xCell c b k) 0 : sProp 𝕄) := by
  iintro ⟨#Hrec, Hat⟩
  ihave HI := (inv_x m K c b k hk) $$ Hrec
  iapply (Rounds.cell_close ER (meanRd m) (Set.mem_univ (K (c, xCK b k))) (fun h => h) (R := 0 + 1) (duties_later m (xCell c b k)))
  iframe HI Hat

end Cert.KernelIdeal.Mean

end
-- ==== Proof.BodyInv.lean ====
import proofs.«900954_g7700000000000955_dist_mean_ax0_shard0_i_m512_n256_v7x_i32_bf16_1_alg».proof.Proof.Steps

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

abbrev upto (i : ℕ) : Finset (Fin 32) := Finset.univ.filter fun k : Fin 32 => 1 ≤ k.val ∧ k.val ≤ i

theorem upto_insert (k : Fin 32) (hk : k ≠ 0) : upto k.val = insert k (upto (k.val - 1)) := by
  have h0 : 0 < k.val := Nat.pos_of_ne_zero (fun h => hk (Fin.ext h))
  ext x
  simp only [Finset.mem_filter, Finset.mem_univ, true_and, Finset.mem_insert, Fin.ext_iff]
  omega
theorem upto_self (k : Fin 32) (hk : k ≠ 0) : k ∉ upto (k.val - 1) := by
  have h0 : 0 < k.val := Nat.pos_of_ne_zero (fun h => hk (Fin.ext h))
  simp only [Finset.mem_filter, Finset.mem_univ, true_and]
  omega
theorem K31_above : (K31 : Finset (Fin 32)) = above 0 := by
  ext x
  simp only [Finset.mem_erase, Finset.mem_filter, Finset.mem_univ, true_and, and_true, ne_eq, Fin.ext_iff, Fin.val_zero]
  omega
theorem upto_bot : upto 0 = ∅ := by
  ext x
  simp only [Finset.mem_filter, Finset.mem_univ, true_and, Finset.notMem_empty, iff_false]
  omega
theorem upto_top : upto 31 = K31 := by
  ext x
  have := x.isLt
  simp only [Finset.mem_erase, Finset.mem_filter, Finset.mem_univ, true_and, and_true, ne_eq, Fin.ext_iff, Fin.val_zero]
  omega

omit [FloatOps F] in
theorem bigSep_above_peel (k : Fin 32) (hk : k ≠ 0) (Φ : Fin 32 → sProp 𝕄) :
    bigSep (above (k.val - 1)) Φ = iprop(Φ k ∗ bigSep (above k.val) Φ) := by
  rw [above_pred k hk, bigSep_insert (not_mem_above k)]; rfl
omit [FloatOps F] in
theorem bigSep_upto_snoc (k : Fin 32) (hk : k ≠ 0) (Φ : Fin 32 → sProp 𝕄) :
    bigSep (upto k.val) Φ = iprop(Φ k ∗ bigSep (upto (k.val - 1)) Φ) := by
  rw [upto_insert k hk, bigSep_insert (upto_self k hk)]; rfl

/-- The four runs of like effects, each with an invariant indexed by how many are done: sums over the offsets above the count shrink, sums over those up to it grow. -/
def SigInv (c : Dev nD) (i : ℕ) : sProp 𝕄 :=
  iprop(records m K ∗ (∃ W, owes (c : Thread nD τ) (Osend c 0 + Osig c i) W)
    ∗ (bigSep (above i) fun k => dutyTok ER (barCell (add c k)) 0 k)
    ∗ bigSep (above i) fun k => iprop(∃ f, rowPts (F := F) c k fullShare f))

theorem sig_step (c : Dev nD) (i' : ℕ) {f : Dev nD → ℕ} {hf : ∀ c, f c < nD} {k : Fin 32} (hn : Chain f hf k)
    (hk : k.val = i' := by rfl) (h0 : i' ≠ 0 := by decide)
    {α : Type} {Q : α → sProp 𝕄} {cont : PUnit → Prog (TpuEff nD τ sig (Elt F) Λ₀ .tc) α} :
    SigInv m K c (i' - 1) ⊢ iprop((SigInv m K c i' -∗ wp frame (wpE (defs₀ (F := F)) 𝒱₀ (c : Thread nD τ) none) Set.univ (cont ⟨⟩) Q)
      -∗ wp frame (wpE (defs₀ (F := F)) 𝒱₀ (c : Thread nD τ) none) Set.univ (.op (.semSignal (Dev.tc ⟨f c, hf c⟩ : Thread nD τ) barS (1#32 : BitVec 32).toNat) cont) Q) := by
  subst hk
  have hk0 : k ≠ 0 := fun h => h0 (by rw [h]; rfl)
  unfold SigInv
  rw [bigSep_above_peel k hk0, bigSep_above_peel k hk0, Osig_peel c k hk0, ← add_assoc]
  iintro ⟨#Hr, ⟨%W, Ho⟩, ⟨Ht, Hts⟩, ⟨Hrow, Hrows⟩⟩ Hk
  iapply (step_signal m K c _ k hk0 (hn c) (Osend c 0 + Osig c k.val) W) $$ [Ho Ht Hrow]
  · iframe Hr Ho Ht Hrow
  iintro Ho
  iapply Hk
  iframe Hr Hts Hrows
  iexists W; iexact Ho

def CopyInv (c : Dev nD) (i : ℕ) : sProp 𝕄 :=
  iprop(records m K ∗ (∃ W, owes (c : Thread nD τ) (Osend c i) W)
    ∗ (bigSep (above i) fun k => rowPts c 0 (piece k.val) (accF m c))
    ∗ (bigSep (above i) fun k => iprop(∃ fd, rowPts (F := F) (add c k) (neg k) fullShare fd))
    ∗ (bigSep (above i) fun k => dutyTok ER (sendCell c k) 0 0)
    ∗ (bigSep (above i) fun k => dutyTok ER (recvCell (add c k) (neg k)) 0 0)
    ∗ bigSep (upto i) fun k => cred (tallyAt (sendCell c k) () N))

theorem copy_step (c : Dev nD) (i' : ℕ) {f : Dev nD → ℕ} {hf : ∀ c, f c < nD} {k : Fin 32} (hn : Chain f hf k)
    (hk : k.val = i' := by rfl) (h0 : i' ≠ 0 := by decide)
    {hsc : (rowM (neg k) : Memref sig (Dev.tc ⟨f c, hf c⟩ : Thread nD τ).2.kind .vmem S1x256 .f32).view.ref.isScScratch = false}
    {hsrc : (rowM 0).view.WordExact} {hdst : (rowM (neg k)).view.WordExact}
    {hsem : DmaTarget.Typed .vmem (.dma (recvS (neg k))) (.remote (Dev.tc ⟨f c, hf c⟩ : Thread nD τ) (rowM (neg k)) (.dma (sendS k)) hsc)}
    {α : Type} {Q : α → sProp 𝕄} {cont : PUnit → Prog (TpuEff nD τ sig (Elt F) Λ₀ .tc) α} :
    CopyInv m K c (i' - 1) ⊢ iprop((CopyInv m K c i' -∗ wp frame (wpE (defs₀ (F := F)) 𝒱₀ (c : Thread nD τ) none) Set.univ (cont ⟨⟩) Q)
      -∗ wp frame (wpE (defs₀ (F := F)) 𝒱₀ (c : Thread nD τ) none) Set.univ
          (.op (.enqueueDma (rowM 0) (.remote (Dev.tc ⟨f c, hf c⟩ : Thread nD τ) (rowM (neg k)) (.dma (sendS k)) hsc) (.dma (recvS (neg k))) hsrc hdst hsem) cont) Q) := by
  subst hk
  have hk0 : k ≠ 0 := fun h => h0 (by rw [h]; rfl)
  unfold CopyInv
  rw [bigSep_above_peel k hk0, bigSep_above_peel k hk0, bigSep_above_peel k hk0, bigSep_above_peel k hk0, bigSep_upto_snoc k hk0,
    Osend_peel c k hk0]
  iintro ⟨#Hr, ⟨%W, Ho⟩, ⟨Hp, Hps⟩, ⟨⟨%fd, Hd⟩, Hds⟩, ⟨Hts, Htss⟩, ⟨Htr, Htrs⟩, Hcs⟩ Hk
  iapply (step_send m K c _ k hk0 (hn c) fd (Osend c k.val) W) $$ [Hp Hd Ho Hts Htr]
  · iframe Hr Hp Hd Ho Hts Htr
  iintro ⟨Hc, Ho⟩
  iapply Hk
  iframe Hr Hps Hds Htss Htrs Hc Hcs
  iexists W; iexact Ho

def WInv (c : Dev nD) (b : Bool) (i : ℕ) : sProp 𝕄 :=
  iprop(records m K ∗ (∃ W, owes (c : Thread nD τ) 0 W)
    ∗ (bigSep (above i) fun k => cred (tallyAt (xCell c b k) () N))
    ∗ (bigSep (above i) fun k => atPos ER (xCell c b k) 0 ∅ 0)
    ∗ (bigSep (upto i) fun k => atPos ER (xCell c b k) 1 ∅ 0)
    ∗ bigSep (upto i) fun k => xPay m c b k)

theorem w_step (c : Dev nD) (b : Bool) {i : ℕ}
    {sp sp' : Space} {s s' : Shape} {e e' : EltTy} {src : Memref sig .tc sp' s' e'} {κ' : Kind} {dst : Memref sig κ' sp s e}
    {hsrc : src.view.WordExact} {hdst : dst.view.WordExact}
    (hn : i + 1 < 32 := by decide) (hdc : dst.view.dmaCredit = N := by decide)
    {α : Type} {Q : α → sProp 𝕄} {cont : PUnit → Prog (TpuEff nD τ sig (Elt F) Λ₀ .tc) α} :
    WInv m K c b i ⊢ iprop((WInv m K c b (i + 1) -∗ wp frame (wpE (defs₀ (F := F)) 𝒱₀ (c : Thread nD τ) none) Set.univ (cont ⟨⟩) Q)
      -∗ wp frame (wpE (defs₀ (F := F)) 𝒱₀ (c : Thread nD τ) none) Set.univ (.op (.waitDma2 (xS b ⟨i + 1, hn⟩) src dst hsrc hdst) cont) Q) := by
  have hk0 : (⟨i + 1, hn⟩ : Fin 32) ≠ 0 := fun h => Nat.succ_ne_zero i (congrArg Fin.val h)
  show WInv m K c b ((⟨i + 1, hn⟩ : Fin 32).val - 1) ⊢ iprop((WInv m K c b (⟨i + 1, hn⟩ : Fin 32).val -∗ _) -∗ _)
  generalize (⟨i + 1, hn⟩ : Fin 32) = k at hk0 ⊢
  unfold WInv
  rw [bigSep_above_peel k hk0, bigSep_above_peel k hk0, bigSep_upto_snoc k hk0, bigSep_upto_snoc k hk0]
  iintro ⟨#Hr, ⟨%W, Ho⟩, ⟨Hc, Hcs⟩, ⟨Ha, Has⟩, Hbs, Hrows⟩ Hk
  iapply (step_wait m K c b k hk0 hdc W) $$ [Hc Ho Ha]
  · iframe Hr Hc Ho Ha
  iintro ⟨Ho, Hb, Hrow⟩
  iapply Hk
  iframe Hr Hcs Has Hb Hbs Hrow Hrows
  iexists (insert (SemLoc.dma (xS b k), ()) W); iexact Ho

omit [FloatOps F] in
/-- Summands that each update under a persistent assertion update together: the assertion is copied to each, and updates commute with the sum. -/
theorem bigSep_update_under (R : sProp 𝕄) [BI.Persistent R] (s : Finset (Fin 32)) (Φ Ψ : Fin 32 → sProp 𝕄)
    (h : ∀ k ∈ s, iprop(R ∗ Φ k) ⊢ (|={Set.univ}=> Ψ k : sProp 𝕄)) :
    iprop(R ∗ bigSep s Φ) ⊢ (|={Set.univ}=> bigSep s Ψ : sProp 𝕄) :=
  (bigSep_with_persistent h).trans (bigSep_fupd _ _)

theorem mem_upto_ne_zero {i : ℕ} {k : Fin 32} (h : k ∈ upto i) : k ≠ 0 := fun h0 => by
  have := (Finset.mem_filter.mp h).2.1
  rw [h0, Fin.val_zero] at this; omega

theorem close_xs (c : Dev nD) (b : Bool) :
    iprop(records m K ∗ bigSep (upto 31) fun k => atPos ER (xCell c b k) 1 ∅ 0) ⊢ (|={Set.univ}=> bigSep K31 fun k => semVal (xCell c b k) 0 : sProp 𝕄) := by
  rw [← upto_top]
  exact bigSep_update_under (records m K) (upto 31) _ _ fun k hk => close_x m K c b k (mem_upto_ne_zero hk)

def negEmb : Fin 32 ↪ Fin 32 := ⟨neg, fun a b h => by have := congrArg neg h; rwa [neg_neg, neg_neg] at this⟩

theorem pos_iff_ne (k : Fin 32) : 0 < k.val ↔ k ≠ 0 :=
  ⟨fun h h0 => by rw [h0, Fin.val_zero] at h; exact Nat.lt_irrefl 0 h, fun h => Nat.pos_of_ne_zero fun h0 => h (Fin.ext h0)⟩

theorem above_map_neg : (above 0).map negEmb = above 0 := by
  ext x
  simp only [Finset.mem_map, Finset.mem_filter, Finset.mem_univ, true_and]
  constructor
  · rintro ⟨a, ha, rfl⟩
    exact (pos_iff_ne _).mpr (neg_ne_zero a ((pos_iff_ne a).mp ha))
  · intro hx
    exact ⟨neg x, (pos_iff_ne _).mpr (neg_ne_zero x ((pos_iff_ne x).mp hx)), neg_neg x⟩

omit [FloatOps F] in
theorem barPay_row (c : Dev nD) (k : Fin 32) :
    barPay (F := F) c (neg k) ⊢ iprop(∃ fd, rowPts (F := F) (add c k) (neg k) fullShare fd) := by
  unfold barPay
  rw [sub_eq_add_neg, neg_neg]
  iintro ⟨H, -⟩; iexact H

omit [FloatOps F] in
/-- Negation permutes the offsets, so the rows the signals handed over are the copies' destinations. -/
theorem barPay_rows (c : Dev nD) :
    bigSep K31 (fun j => barPay (F := F) c j) ⊢ bigSep (above 0) fun k => iprop(∃ fd, rowPts (F := F) (add c k) (neg k) fullShare fd) := by
  have e : bigSep K31 (fun j => barPay (F := F) c j) = bigSep (above 0) (fun k => barPay (F := F) c (neg k)) := by
    rw [K31_above]
    conv_lhs => rw [← above_map_neg, bigSep_map]
    rfl
  rw [e]
  exact bigSep_mono fun k _ => barPay_row c k

abbrev r00 : Rect S32x256 := Rect.unit (s := S32x256) ![0, 0] S1x256.size inb_S32x256_S1x256_0_0

omit [FloatOps F] in
theorem eq_of_biEntails {P Q : sProp 𝕄} (h : P ⊣⊢ Q) : P = Q := equiv_iff.mp ⟨h.mp, h.mpr⟩

omit [FloatOps F] in
theorem rowPts_access (c : Dev nD) (q : PosShare TreeShare) (f : Buf (Elt F) ((c : Thread nD τ).loc cc0_scratch0)) :
    rowPts c 0 q f
      = (((aM.access r00 : View sig .tc _ _ _).loc (c : Thread nD τ))
          ↦[(aM.access r00 : View sig .tc _ _ _).set]{q} f : sProp 𝕄) := rfl

theorem row_stored (c : Dev nD) (f : Buf (Elt F) ((c : Thread nD τ).loc cc0_scratch0)) :
    (((aM.access r00 : View sig .tc _ _ _).loc (c : Thread nD τ))
        ↦[(aM.access r00 : View sig .tc _ _ _).set]{fullShare}
          ((aM.access r00 : View sig .tc _ _ _).write (Elt F) f (k0_pay1 (xstg m c)) Finset.univ) : sProp 𝕄)
      ⊢ (rowPts c 0 fullShare (accF m c) : sProp 𝕄) := by
  rw [← rowPts_access]
  exact row_congr c 0 fullShare _ _ fun i hi => stored_row0 m c f i hi

/-- Row 0's kept half with the other rows whole is the whole array at the kept share with the rows' left halves. -/
theorem rows_lend (c : Dev nD) (f : Buf (Elt F) ((c : Thread nD τ).loc cc0_scratch0)) :
    iprop(rowPts c 0 keepQ f ∗ bigSep (upto 31) fun j => rowPts c j fullShare f)
      = (iprop((((c : Thread nD τ).loc cc0_scratch0) ↦{keepQ} f) ∗ bigSep (upto 31) fun j => rowPts c j fullShare.left f) : sProp 𝕄) := by
  have e1 : (bigSep (upto 31) fun j => rowPts (F := F) c j fullShare f)
      = iprop((bigSep (upto 31) fun j => rowPts (F := F) c j fullShare.left f) ∗ bigSep (upto 31) fun j => rowPts (F := F) c j keepQ f) := by
    refine Eq.trans ?_ (bigSep_sep (upto 31) _ _)
    exact bigSep_congr fun j _ => eq_of_biEntails (row_halves c j fullShare f)
  have e2 : ((((c : Thread nD τ).loc cc0_scratch0) ↦{keepQ} f) : sProp 𝕄)
      = iprop(rowPts c 0 keepQ f ∗ bigSep (upto 31) fun j => rowPts (F := F) c j keepQ f) := by
    rw [eq_of_biEntails (rows_split c keepQ f), bigSep_univ_split (0 : Fin 32), upto_top]
    rfl
  rw [e1, e2]
  have h1 (A B C : sProp 𝕄) : iprop(A ∗ B ∗ C) ⊢ iprop((A ∗ C) ∗ B) := by
    iintro ⟨A, B, C⟩
    isplitr [B]
    · iframe A C
    · iexact B
  have h2 (A B C : sProp 𝕄) : iprop((A ∗ C) ∗ B) ⊢ iprop(A ∗ B ∗ C) := by
    iintro ⟨⟨A, C⟩, B⟩
    iframe A B C
  exact equiv_iff.mp ⟨h1 _ _ _, h2 _ _ _⟩

omit [FloatOps F] in
theorem bigSep_univ_K31 (Φ : Fin 32 → sProp 𝕄) : bigSep Finset.univ Φ = iprop(Φ 0 ∗ bigSep K31 Φ) := bigSep_univ_split (0 : Fin 32)
omit [FloatOps F] in
theorem bigSep_univ_above (Φ : Fin 32 → sProp 𝕄) : bigSep Finset.univ Φ = iprop(Φ 0 ∗ bigSep (above 0) Φ) := by
  rw [bigSep_univ_K31, K31_above]
theorem upto_top_above : upto 31 = above 0 := upto_top.trans K31_above

omit [FloatOps F] in
theorem rows_some (c : Dev nD) (f : Buf (Elt F) ((c : Thread nD τ).loc cc0_scratch0)) :
    (bigSep (above 0) fun k => rowPts (F := F) c k fullShare f) ⊢ bigSep (above 0) fun k => iprop(∃ f, rowPts (F := F) c k fullShare f) :=
  bigSep_mono fun k _ => (show rowPts (F := F) c k fullShare f ⊢ iprop(∃ f, rowPts (F := F) c k fullShare f) from by iintro H; iexists f; iexact H)

theorem scratch_rows (c : Dev nD) :
    scratchAny (F := F) c ⊢ iprop((∃ f, rowPts (F := F) c 0 fullShare f) ∗ bigSep (above 0) fun k => iprop(∃ f, rowPts (F := F) c k fullShare f)) := by
  unfold scratchAny
  iintro ⟨%f, H⟩
  ihave H := (rows_split c fullShare f).mp $$ H
  ihave H := (Entails.of_eq (bigSep_univ_above fun j => rowPts (F := F) c j fullShare f)) $$ H
  icases H with ⟨H0, Hs⟩
  isplitl [H0]; · iexists f; iexact H0
  iapply (rows_some c f)
  iexact Hs

theorem rows_scratch (c : Dev nD) (f : Buf (Elt F) ((c : Thread nD τ).loc cc0_scratch0)) :
    iprop(rowPts c 0 fullShare f ∗ bigSep (above 0) fun j => rowPts c j fullShare f) ⊢ scratchAny (F := F) c := by
  unfold scratchAny
  iintro H
  iexists f
  iapply (rows_split c fullShare f).mpr
  iapply (Entails.of_eq (bigSep_univ_above fun j => rowPts (F := F) c j fullShare f).symm)
  iexact H

abbrev o00 : Rect S1x256 := Rect.unit (s := S1x256) ![0, 0] S1x256.size inb_S1x256_S1x256_0_0

end Cert.KernelIdeal.Mean

end
-- ==== Proof.Body.lean ====
import proofs.«900954_g7700000000000955_dist_mean_ax0_shard0_i_m512_n256_v7x_i32_bf16_1_alg».proof.Proof.BodyInv

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

/-- One device's body: 31 signals, its column sums into row 0, the barrier wait, 31 copies, 31 receive waits, the result, 31 send waits; then all cells close. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  rw [cc0_body_eq_skeleton]; unfold cc0_body_skel
  rw [k0_part55_eq_skeleton]; unfold k0_part55_skel
  simp only [Prog.lift, Prog.bind_op, Prog.bind_ret, Prog.pure_eq_ret]
  unfold bodyPre ghost positions payToks spare creds
  rw [K31_above]
  iintro ⟨⟨⟨⟨#Hrec, ⟨HaB, HaS, HaR⟩, ⟨HtB, HtR, HtS⟩, ⟨Hz0s, Hz0r⟩⟩, ⟨HcB, HcR⟩, #Hlev, Hscr⟩, Ho, ⟨%d0, %g0, %hg0, Hx⟩, ⟨%d1, %g1, %hg1, Hout⟩⟩, Hk⟩
  have hx : g0 = xstg m c := by
    rw [hg0]; unfold Dat.before
    rw [if_pos (show (cfg0.win (0 : Fin 2)).fetch t₀ = true from rfl)]; rfl
  subst hx
  unfold Dat.owesAt Pipeline.owesWithin
  icases Ho with ⟨%W, %hW, HO⟩
  rw [show (dats m 0 c).owed t₀.castSucc = Osend c 0 + Osig c 0 from rfl]
  ihave Hrows := (scratch_rows c) $$ Hscr
  icases Hrows with ⟨Hrow0, Hrows⟩

  ihave H : SigInv m K c 0 $$ [HO HtB Hrows]
  · unfold SigInv
    iframe Hrec HtB Hrows
    iexists W; iexact HO
  rw [wp_bind]
  simp only [wp_deviceId, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel,
    semSignalWord, semWaitWord, Prog.lift, Prog.bind_op, Prog.bind_ret, Prog.pure_eq_ret]
  iapply (sig_step m K c 1 dev_eq_1) $$ H; iintro H
  iapply (sig_step m K c 2 dev_eq_2) $$ H; iintro H
  iapply (sig_step m K c 3 dev_eq_3) $$ H; iintro H
  iapply (sig_step m K c 4 dev_eq_4) $$ H; iintro H
  iapply (sig_step m K c 5 dev_eq_5) $$ H; iintro H
  iapply (sig_step m K c 6 dev_eq_6) $$ H; iintro H
  iapply (sig_step m K c 7 dev_eq_7) $$ H; iintro H
  iapply (sig_step m K c 8 dev_eq_8) $$ H; iintro H
  iapply (sig_step m K c 9 dev_eq_9) $$ H; iintro H
  iapply (sig_step m K c 10 dev_eq_10) $$ H; iintro H
  iapply (sig_step m K c 11 dev_eq_11) $$ H; iintro H
  iapply (sig_step m K c 12 dev_eq_12) $$ H; iintro H
  iapply (sig_step m K c 13 dev_eq_13) $$ H; iintro H
  iapply (sig_step m K c 14 dev_eq_14) $$ H; iintro H
  iapply (sig_step m K c 15 dev_eq_15) $$ H; iintro H
  iapply (sig_step m K c 16 dev_eq_16) $$ H; iintro H
  iapply (sig_step m K c 17 dev_eq_17) $$ H; iintro H
  iapply (sig_step m K c 18 dev_eq_18) $$ H; iintro H
  iapply (sig_step m K c 19 dev_eq_19) $$ H; iintro H
  iapply (sig_step m K c 20 dev_eq_20) $$ H; iintro H
  iapply (sig_step m K c 21 dev_eq_21) $$ H; iintro H
  iapply (sig_step m K c 22 dev_eq_22) $$ H; iintro H
  iapply (sig_step m K c 23 dev_eq_23) $$ H; iintro H
  iapply (sig_step m K c 24 dev_eq_24) $$ H; iintro H
  iapply (sig_step m K c 25 dev_eq_25) $$ H; iintro H
  iapply (sig_step m K c 26 dev_eq_26) $$ H; iintro H
  iapply (sig_step m K c 27 dev_eq_27) $$ H; iintro H
  iapply (sig_step m K c 28 dev_eq_28) $$ H; iintro H
  iapply (sig_step m K c 29 dev_eq_29) $$ H; iintro H

  iapply (sig_step m K c 30 dev_eq_30) $$ H; iintro H
  iapply (sig_step m K c 31 dev_eq_31) $$ H; iintro H
  unfold SigInv
  simp only [above_31, bigSep_empty, Osig_done, _root_.add_zero]
  icases H with ⟨-, ⟨%W, Ho⟩, -, -⟩
  icases Hrow0 with ⟨%f0, Hrow⟩
  iapply (wp_load 𝒱₀ (c : Thread nD τ) none Set.univ (m := xM) (Finset.subset_univ _)) $$ Hx; iintro Hx
  rw [read_x]
  ihave Hrow := (Entails.of_eq (rowPts_access c fullShare f0)) $$ Hrow
  iapply (wp_load_rect 𝒱₀ (c : Thread nD τ) none Set.univ (m := aM) (r := r00) (Finset.Subset.refl _)) $$ Hrow; iintro Hrow
  iapply (wp_store 𝒱₀ (c : Thread nD τ) none Set.univ (m := aM) (r := r00) (Mk := Finset.univ)
    (show (aM.access r00 : View sig .tc _ _ _).setOn Finset.univ ⊆ (aM.access r00 : View sig .tc _ _ _).set from Finset.Subset.refl _)) $$ Hrow; iintro Hrow
  ihave Hrow := (row_stored m c f0) $$ Hrow
  ihave Hrow := (row_halves c 0 fullShare (accF m c)).mp $$ Hrow
  icases Hrow with ⟨Hl, Hkeep⟩
  ihave Hl := (left_chain c 0 (accF m c) 31 (Nat.le_refl 31)).mp $$ Hl
  icases Hl with ⟨Hrem, Hps⟩
  ihave Hps := (Entails.of_eq (congrArg (fun s => bigSep s fun k : Fin 32 => rowPts (F := F) c 0 (piece k.val) (accF m c)) upto_top_above)) $$ Hps
  iapply (step_barwait m K c W) $$ [HcB Ho HaB]
  · iframe Hrec HcB Ho Hlev HaB
  iintro ⟨Ho, Hbp⟩
  ihave Hds := (barPay_rows c) $$ Hbp

  ihave H : CopyInv m K c 0 $$ [Ho Hps Hds HtS HtR]
  · unfold CopyInv
    simp only [upto_bot, bigSep_empty]
    iframe Hrec Hps Hds HtS HtR
    isplitl; · iexists _; iexact Ho
    iempintro
  simp only [k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel,
    semSignalWord, Prog.lift, Prog.bind_op, Prog.bind_ret, Prog.pure_eq_ret]
  iapply (copy_step m K c 1 dev_eq_32) $$ H; iintro H
  iapply (copy_step m K c 2 dev_eq_33) $$ H; iintro H
  iapply (copy_step m K c 3 dev_eq_34) $$ H; iintro H
  iapply (copy_step m K c 4 dev_eq_35) $$ H; iintro H
  iapply (copy_step m K c 5 dev_eq_36) $$ H; iintro H
  iapply (copy_step m K c 6 dev_eq_37) $$ H; iintro H
  iapply (copy_step m K c 7 dev_eq_38) $$ H; iintro H
  iapply (copy_step m K c 8 dev_eq_39) $$ H; iintro H
  iapply (copy_step m K c 9 dev_eq_40) $$ H; iintro H
  iapply (copy_step m K c 10 dev_eq_41) $$ H; iintro H
  iapply (copy_step m K c 11 dev_eq_42) $$ H; iintro H
  iapply (copy_step m K c 12 dev_eq_43) $$ H; iintro H
  iapply (copy_step m K c 13 dev_eq_44) $$ H; iintro H
  iapply (copy_step m K c 14 dev_eq_45) $$ H; iintro H
  iapply (copy_step m K c 15 dev_eq_46) $$ H; iintro H
  iapply (copy_step m K c 16 dev_eq_47) $$ H; iintro H
  iapply (copy_step m K c 17 dev_eq_48) $$ H; iintro H
  iapply (copy_step m K c 18 dev_eq_49) $$ H; iintro H
  iapply (copy_step m K c 19 dev_eq_50) $$ H; iintro H
  iapply (copy_step m K c 20 dev_eq_51) $$ H; iintro H
  iapply (copy_step m K c 21 dev_eq_52) $$ H; iintro H
  iapply (copy_step m K c 22 dev_eq_53) $$ H; iintro H
  iapply (copy_step m K c 23 dev_eq_54) $$ H; iintro H
  iapply (copy_step m K c 24 dev_eq_55) $$ H; iintro H
  iapply (copy_step m K c 25 dev_eq_56) $$ H; iintro H
  iapply (copy_step m K c 26 dev_eq_57) $$ H; iintro H
  iapply (copy_step m K c 27 dev_eq_58) $$ H; iintro H
  iapply (copy_step m K c 28 dev_eq_59) $$ H; iintro H
  iapply (copy_step m K c 29 dev_eq_60) $$ H; iintro H
  iapply (copy_step m K c 30 dev_eq_61) $$ H; iintro H
  iapply (copy_step m K c 31 dev_eq_62) $$ H; iintro H
  unfold CopyInv
  simp only [above_31, bigSep_empty, Osend_done]
  icases H with ⟨-, Ho, -, -, -, -, Hcs⟩

  ihave H : WInv m K c true 0 $$ [Ho HcR HaR]
  · unfold WInv
    simp only [upto_bot, bigSep_empty]
    iframe Hrec Ho HcR HaR
    isplitl <;> iempintro
  simp only [k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel,
    semSignalWord, Prog.lift, Prog.bind_op, Prog.bind_ret, Prog.pure_eq_ret]
  iterate 31 (iapply (w_step m K c true) $$ H; iintro H)
  unfold WInv xPay recvPay
  simp only [Nat.reduceAdd, above_31, bigSep_empty]
  icases H with ⟨-, Ho, -, -, HbR, Hrows⟩
  ihave Hw := (Entails.of_eq (rows_lend c (accF m c))) $$ [Hkeep Hrows]
  · iframe Hkeep Hrows
  icases Hw with ⟨Hw, Hls⟩
  iapply (wp_load 𝒱₀ (c : Thread nD τ) none Set.univ (m := aM) (Finset.subset_univ _)) $$ Hw; iintro Hw
  rw [read_acc]
  ihave Hw := (Entails.of_eq (rows_lend c (accF m c)).symm) $$ [Hw Hls]
  · iframe Hw Hls
  icases Hw with ⟨Hkeep, Hrows⟩

  ihave Hcs := (Entails.of_eq (congrArg (fun s => bigSep s fun k : Fin 32 => (cred (tallyAt (sendCell c k) () N) : sProp 𝕄)) upto_top_above)) $$ Hcs
  ihave H : WInv m K c false 0 $$ [Ho Hcs HaS]
  · unfold WInv
    simp only [upto_bot, bigSep_empty]
    iframe Hrec Ho Hcs HaS
    isplitl <;> iempintro
  simp only [k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel,
    semSignalWord, Prog.lift, Prog.bind_op, Prog.bind_ret, Prog.pure_eq_ret]
  iapply (wp_load 𝒱₀ (c : Thread nD τ) none Set.univ (m := oM) (Finset.subset_univ _)) $$ Hout; iintro Hout
  iapply (wp_store 𝒱₀ (c : Thread nD τ) none Set.univ (m := oM) (r := o00) (Mk := Finset.univ) (Finset.subset_univ _)) $$ Hout; iintro Hout
  rw [write_out]
  iterate 29 (iapply (w_step m K c false) $$ H; iintro H)
  rw [wp_ret]; imodintro; try dsimp only
  iterate 2 (iapply (w_step m K c false) $$ H; iintro H)
  unfold WInv xPay sendPay
  simp only [Nat.reduceAdd, above_31, bigSep_empty]
  icases H with ⟨-, ⟨%W', Ho⟩, -, -, HbS, Hpcs⟩

  imod (close_xs m K c false) $$ [HbS] with HzS
  · iframe Hrec HbS
  imod (close_xs m K c true) $$ [HbR] with HzR
  · iframe Hrec HbR

  ihave Hl := (left_chain c 0 (accF m c) 31 (Nat.le_refl 31)).mpr $$ [Hrem Hpcs]
  · iframe Hrem Hpcs
  ihave Hrow0 := (row_halves c 0 fullShare (accF m c)).mpr $$ [Hl Hkeep]
  · iframe Hl Hkeep
  ihave Hrows := (Entails.of_eq (congrArg (fun s => bigSep s fun j : Fin 32 => rowPts (F := F) c j fullShare (accF m c)) upto_top_above)) $$ Hrows
  ihave Hscr := (rows_scratch c (accF m c)) $$ [Hrow0 Hrows]
  · iframe Hrow0 Hrows
  rw [wp_ret]; imodintro
  iapply Hk
  unfold bodyPost Φ₁ Dat.owesAt Pipeline.owesWithin
  rw [show (dats m 0 c).owed t₀.succ = 0 from rfl]
  isplitl [Hscr HzS HzR Hz0s Hz0r]
  · isplitl [Hscr]; · iexact Hscr
    isplitl [HzS Hz0s]
    · iapply (Entails.of_eq (bigSep_univ_K31 fun k => (semVal (sendCell c k) 0 : sProp 𝕄)).symm)
      iframe Hz0s HzS
    · iapply (Entails.of_eq (bigSep_univ_K31 fun j => (semVal (recvCell c j) 0 : sProp 𝕄)).symm)
      iframe Hz0r HzR
  isplitl [Ho]
  · iexists W'
    isplitr; · ipureintro; exact fun _ _ => Or.inl trivial
    iexact Ho
  isplitl [Hx]
  · iexists _; isplitr; · ipureintro; rfl
    iexact Hx
  iexists _; isplitr; · ipureintro; rfl
  iexact Hout

end Cert.KernelIdeal.Mean

end
-- ==== Proof.Fund.lean ====
import proofs.«900954_g7700000000000955_dist_mean_ax0_shard0_i_m512_n256_v7x_i32_bf16_1_alg».proof.Proof.Data
import proofs.«900954_g7700000000000955_dist_mean_ax0_shard0_i_m512_n256_v7x_i32_bf16_1_alg».proof.Proof.Tables

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev osem : Fin 64 → SemLoc sig := fun i =>
  if h : i.val < 32 then .dma (sendS ⟨i.val, h⟩) else .dma (recvS ⟨i.val - 32, by omega⟩)

theorem osem_val (i : Fin 64) : ∃ q : DmaSem sig, osem i = .dma q ∧ q.val = i.val + 2 := by
  unfold osem
  split
  · exact ⟨_, rfl, by simp only [sendS_val]; omega⟩
  · exact ⟨_, rfl, by simp only [recvS_val]; omega⟩

theorem ownSemFacts : Pipeline.OwnSemFacts cfg0.spec osem where
  isScoped := by
    have h1 : ∀ k : Fin 32, (SemLoc.dma (sendS k) : SemLoc sig).isScoped .tc = true := by decide
    have h2 : ∀ k : Fin 32, (SemLoc.dma (recvS k) : SemLoc sig).isScoped .tc = true := by decide
    intro i; unfold osem; split
    · exact h1 _
    · exact h2 _
  inj := by
    intro i j h
    obtain ⟨q, hq, hv⟩ := osem_val i
    obtain ⟨q', hq', hv'⟩ := osem_val j
    rw [hq, hq'] at h
    have hqq : q = q' := SemLoc.dma.inj h
    subst hqq; exact Fin.ext (by omega)
  disj := by
    have hw : ∀ w s, ¬(2 ≤ ((cfg0.spec w).sem s).val ∧ ((cfg0.spec w).sem s).val < 66) := by decide
    intro i w s h
    obtain ⟨q, hq, hv⟩ := osem_val i
    rw [hq] at h
    have hqq := SemLoc.dma.inj h
    subst hqq
    exact hw w s ⟨by omega, by have := i.isLt; omega⟩

omit [FloatOps F] in
theorem bigSep_filter_snd {α β : Type} [Fintype α] [Fintype β] [DecidableEq α] [DecidableEq β] (p : β → Prop) [DecidablePred p]
    (Φ : α × β → sProp 𝕄) :
    bigSep (Finset.univ.filter fun ab : α × β => p ab.2) Φ
      = bigSep Finset.univ fun a => bigSep (Finset.univ.filter p) fun b => Φ (a, b) := by
  rw [bigSep_filter, bigSep_univ_prod]
  exact bigSep_congr fun a _ => by rw [bigSep_filter]

omit [FloatOps F] in
theorem bigSep_reindex {α β : Type} [Fintype α] [Fintype β] [DecidableEq α] [DecidableEq β] (p : β → Prop) [DecidablePred p]
    (e : α × β ≃ α × β) (he : ∀ x, p (e x).2 ↔ p x.2) (Φ : α × β → sProp 𝕄) :
    (bigSep Finset.univ fun a => bigSep (Finset.univ.filter p) fun b => Φ (a, b))
      = bigSep Finset.univ fun a => bigSep (Finset.univ.filter p) fun b => Φ (e (a, b)) := by
  rw [← bigSep_filter_snd p Φ, ← bigSep_filter_snd p (fun x => Φ (e x)), bigSep_filter, bigSep_filter, bigSep_univ_equiv e]
  exact bigSep_congr fun x _ => by simp only [he x]

omit [FloatOps F] in
theorem bigSep_erase' {I : Type} [DecidableEq I] {s : Finset I} {i : I} (hi : i ∈ s) (Φ : I → sProp 𝕄) :
    bigSep s Φ = iprop(Φ i ∗ bigSep (s.erase i) Φ) := BI.bigSep_erase hi

theorem K31_eq : K31 = Finset.univ.filter fun k : Fin 32 => k ≠ 0 := (Finset.filter_ne' _ _).symm

theorem okCK_eq : (Finset.univ.filter fun x : CK => x.ok)
    = insert CK.bar (K31.map ⟨CK.send, fun _ _ h => CK.send.inj h⟩ ∪ K31.map ⟨CK.recv, fun _ _ h => CK.recv.inj h⟩) := by
  ext x
  simp only [Finset.mem_filter, Finset.mem_univ, true_and, Finset.mem_insert, Finset.mem_union, Finset.mem_map,
    Finset.mem_erase, Function.Embedding.coeFn_mk, and_true]
  cases x with
  | bar => exact ⟨fun _ => Or.inl rfl, fun _ => trivial⟩
  | send k =>
    constructor
    · intro h; exact Or.inr (Or.inl ⟨k, h, rfl⟩)
    · rintro (h | ⟨k', hk', h⟩ | ⟨j, _, h⟩)
      · cases h
      · cases h; exact hk'
      · cases h
  | recv j =>
    constructor
    · intro h; exact Or.inr (Or.inr ⟨j, h, rfl⟩)
    · rintro (h | ⟨k', _, h⟩ | ⟨j', hj', h⟩)
      · cases h
      · cases h
      · cases h; exact hj'

omit [FloatOps F] in
theorem bigSep_okCK (Φ : CK → sProp 𝕄) :
    bigSep (Finset.univ.filter fun x : CK => x.ok) Φ
      = iprop(Φ .bar ∗ (bigSep K31 fun k => Φ (.send k)) ∗ bigSep K31 fun j => Φ (.recv j)) := by
  rw [okCK_eq, bigSep_insert (by simp), bigSep_union (by
    rw [Finset.disjoint_left]; intro x hx hx'
    obtain ⟨k, -, rfl⟩ := Finset.mem_map.mp hx
    obtain ⟨j, -, hj⟩ := Finset.mem_map.mp hx'
    cases hj), bigSep_map, bigSep_map]
  rfl

theorem csem_injective : Function.Injective (csem : CK → SemLoc sig) := by
  intro x y h
  have hv := congrArg (fun s : SemLoc sig => match s with | .reg _ => 0 | .dma q => q.val + 1) h
  cases x <;> cases y <;> simp only [sendS_val, recvS_val] at hv <;>
    first | rfl | omega | (congr 1; exact Fin.ext (by omega))

theorem kcell_injective : Function.Injective (kcell : Dev nD × CK → GSem nD τ sig) := by
  rintro ⟨c, x⟩ ⟨c', x'⟩ h
  have h1 : c = c' := congrArg (fun g : GSem nD τ sig => g.1.1) h
  subst h1
  have h2 : x = x' := csem_injective (congrArg Prod.snd h)
  subst h2; rfl

def ringCells : Finset (GSem nD τ sig) := allCells.map ⟨kcell, kcell_injective⟩

abbrev tokOf (t : Dev nD × Fin 3 × Fin 32) : GSem nD τ sig × ℕ × Fin 32 := match t.2.1 with
  | 0 => (barCell t.1, 0, t.2.2) | 1 => (sendCell t.1 t.2.2, 0, 0) | 2 => (recvCell t.1 t.2.2, 0, 0)

theorem tokOf_injective : Function.Injective (tokOf : Dev nD × Fin 3 × Fin 32 → GSem nD τ sig × ℕ × Fin 32) := by
  rintro ⟨c, i, k⟩ ⟨c', i', k'⟩ h
  have h1 : c = c' := by
    have := congrArg (fun x : GSem nD τ sig × ℕ × Fin 32 => x.1.1.1) h
    fin_cases i <;> fin_cases i' <;> exact this
  subst h1
  have hv := congrArg (fun x : GSem nD τ sig × ℕ × Fin 32 => ((match x.1.2 with | .reg _ => 0 | .dma q => q.val + 1), x.2.2.val)) h
  have : i = i' ∧ k = k' := by
    fin_cases i <;> fin_cases i' <;> simp only [tokOf, sendS_val, recvS_val, Prod.mk.injEq] at hv <;>
      first | exact ⟨rfl, Fin.ext (by omega)⟩ | omega
  obtain ⟨rfl, rfl⟩ := this; rfl

def ringToks : Finset (GSem nD τ sig × ℕ × Fin 32) :=
  (Finset.univ.filter fun t : Dev nD × Fin 3 × Fin 32 => t.2.2 ≠ 0).map ⟨tokOf, tokOf_injective⟩

def toks (c : Dev nD) : sProp 𝕄 :=
  iprop((bigSep K31 fun j => dutyTok ER (barCell c) 0 j)
    ∗ (bigSep K31 fun k => dutyTok ER (sendCell c k) 0 0)
    ∗ (bigSep K31 fun j => dutyTok ER (recvCell c j) 0 0))

def G (c : Dev nD) : sProp 𝕄 :=
  iprop((bigSep (Finset.univ.filter fun x : CK => x.ok) fun x => roundState ER (meanRd m) (kcell (c, x)) 0)
    ∗ (bigSep (Finset.univ.filter fun x : CK => x.ok) fun x => iprop(atPos ER (kcell (c, x)) 0 ∅ 0 ∗ reached ER (kcell (c, x)) 0))
    ∗ toks c)

def G' (c : Dev nD) : sProp 𝕄 := iprop(∃ K, ghost m K c)

def u₀ : UU :=
  (initOf (Pipeline.cells cfgs cellOf_inj) (Pipeline.launchToks cfgs cellOf_inj), initOf ringCells ringToks)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ
      = bigSep Finset.univ fun c : Dev nD => bigSep (Finset.univ.filter fun x : CK => x.ok) fun x => Φ (kcell (c, x)) := by
    unfold ringCells; rw [bigSep_map]
    exact bigSep_filter_snd (fun x : CK => x.ok) (fun ck => Φ (kcell ck))
  have hT : bigSep ringToks (fun x => (dutyTok ER x.1 x.2.1 x.2.2 : sProp 𝕄)) = bigSep Finset.univ fun c : Dev nD => toks c := by
    unfold ringToks; rw [bigSep_map]
    refine (bigSep_filter_snd (fun b : Fin 3 × Fin 32 => b.2 ≠ 0) _).trans (bigSep_congr fun c _ => ?_)
    refine (bigSep_filter_snd (fun k : Fin 32 => k ≠ 0) _).trans ?_
    rw [bigSep_fin3, ← K31_eq]; rfl
  iintro HX
  imod (Rounds.fund ER (meanRd m) ringCells ringToks) $$ HX with ⟨Hst, Hr, Hat, Htok⟩
  imodintro
  ihave Hst' := (Entails.of_eq (hX fun g => roundState ER (meanRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_u₀ :
    (ownU u₀ : sProp 𝕄)
      ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

def osemIx : Fin 32 ⊕ Fin 32 ≃ Fin 64 where
  toFun | .inl k => ⟨k.val, by omega⟩ | .inr j => ⟨32 + j.val, by omega⟩
  invFun i := if h : i.val < 32 then .inl ⟨i.val, h⟩ else .inr ⟨i.val - 32, by omega⟩
  left_inv x := by
    rcases x with k | j
    · dsimp only; rw [dif_pos k.isLt]
    · dsimp only; rw [dif_neg (show ¬(32 + j.val < 32) by omega)]
      congr 1; exact Fin.ext (by simp)
  right_inv i := by
    by_cases h : i.val < 32
    · dsimp only; rw [dif_pos h]
    · dsimp only; rw [dif_neg h]
      exact Fin.ext (by dsimp only; omega)

theorem osem_inl (k : Fin 32) : osem (osemIx (.inl k)) = .dma (sendS k) := by
  show (if h : k.val < 32 then SemLoc.dma (sendS ⟨k.val, h⟩) else _) = _
  rw [dif_pos k.isLt]
theorem osem_inr (j : Fin 32) : osem (osemIx (.inr j)) = .dma (recvS j) := by
  show (if h : 32 + j.val < 32 then _ else SemLoc.dma (recvS ⟨32 + j.val - 32, _⟩)) = _
  rw [dif_neg (show ¬(32 + j.val < 32) by omega)]
  congr 2; exact Fin.ext (by simp)

theorem ownSems0_eq (c : Dev nD) :
    (Pipeline.ownSems0 (Ix := Unit) (Name := ℕ) (U := UU) (Lvl := ℕ) (Val := Elt F) (τ := τ) osem c : sProp 𝕄)
      = iprop((bigSep Finset.univ fun k : Fin 32 => semVal (sendCell c k) 0) ∗ bigSep Finset.univ fun j : Fin 32 => semVal (recvCell c j) 0) := by
  unfold Pipeline.ownSems0
  rw [bigSep_univ_equiv osemIx, bigSep_univ_sum]
  simp only [osem_inl, osem_inr]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep (Finset.univ.filter fun x : CK => x.ok) fun x => semVal (kcell (c, x)) 0) ∗ spare c) : sProp 𝕄) := by
  rw [ownSems0_eq, unscopedSems0_eq, bigSep_okCK,
    bigSep_erase' (Finset.mem_univ (0 : Fin 32)) (fun k : Fin 32 => (semVal (sendCell c k) 0 : sProp 𝕄)),
    bigSep_erase' (Finset.mem_univ (0 : Fin 32)) (fun j : Fin 32 => (semVal (recvCell c j) 0 : sProp 𝕄))]
  unfold spare
  iintro ⟨⟨⟨HS0, HS⟩, ⟨HR0, HR⟩⟩, HB⟩
  isplitl [HB HS HR]
  · isplitl [HB]; · iexact HB
    isplitl [HS] <;> iassumption
  · isplitl [HS0] <;> iassumption

def core (c : Dev nD) : sProp 𝕄 :=
  iprop((bigSep (Finset.univ.filter fun x : CK => x.ok) fun x => iprop(∃ κ : ℕ, cellInv ER (meanRd m) κ (kcell (c, x))))
    ∗ (bigSep (Finset.univ.filter fun x : CK => x.ok) fun x => reached ER (kcell (c, x)) 0)
    ∗ positions c ∗ toks c ∗ spare c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> core m c := by
  unfold G core
  iintro ⟨Hos, Hus, Hst, Hat, Htok⟩
  ihave Hv := (sems0_eq (F := F) c) $$ [Hos Hus]
  · isplitl [Hos] <;> iassumption
  icases Hv with ⟨Hv, Hsp⟩
  ihave Hat' := (Entails.of_eq (bigSep_sep' (Finset.univ.filter fun x : CK => x.ok) (fun x => (atPos ER (kcell (c, x)) 0 ∅ 0 : sProp 𝕄)) (fun x => reached ER (kcell (c, x)) 0))) $$ Hat
  icases Hat' with ⟨Hat, Hr⟩
  ihave Hpos := (Entails.of_eq (bigSep_okCK (fun x => (atPos ER (kcell (c, x)) 0 ∅ 0 : sProp 𝕄)))) $$ Hat
  imod (show iprop((bigSep (Finset.univ.filter fun x : CK => x.ok) fun x => semVal (kcell (c, x)) 0)
        ∗ bigSep (Finset.univ.filter fun x : CK => x.ok) fun x => roundState ER (meanRd m) (kcell (c, x)) 0)
      ⊢ (|={Set.univ}=> bigSep (Finset.univ.filter fun x : CK => x.ok) fun x => iprop(∃ κ : ℕ, cellInv ER (meanRd m) κ (kcell (c, x))) : sProp 𝕄) from by
        rw [← bigSep_sep']
        exact (bigSep_mono fun x _ => (Rounds.body_intro ER (meanRd m) (kcell (c, x))).trans inv_alloc).trans (bigSep_fupd _ _)) $$ [Hv Hst] with Hinv
  · isplitl [Hv] <;> iassumption
  imodintro
  isplitl [Hinv]; · iexact Hinv
  isplitl [Hr]; · iexact Hr
  isplitl [Hpos]; · unfold positions; iexact Hpos
  iframe Htok Hsp

def linear (c : Dev nD) : sProp 𝕄 := iprop(positions c ∗ payToks c ∗ spare c)

theorem ghost_intro (K : Dev nD × CK → ℕ) (c : Dev nD) : iprop(records m K ∗ linear c) ⊢ G' m c := by
  unfold linear G' ghost
  iintro ⟨HR, HL⟩
  iexists K
  isplitl [HR] <;> iassumption

def addPair : Dev nD × Fin 32 ≃ Dev nD × Fin 32 where
  toFun x := (add x.1 x.2, x.2)
  invFun x := (sub x.1 x.2, x.2)
  left_inv x := by rcases x with ⟨c, k⟩; exact Prod.ext (Mean.sub_add c k) rfl
  right_inv x := by rcases x with ⟨c, k⟩; exact Prod.ext (Mean.add_sub c k) rfl

def negPair : Dev nD × Fin 32 ≃ Dev nD × Fin 32 where
  toFun x := (add x.1 x.2, neg x.2)
  invFun x := (add x.1 x.2, neg x.2)
  left_inv x := by rcases x with ⟨c, k⟩; exact Prod.ext (Mean.add_add_neg c k) (Mean.neg_neg k)
  right_inv x := by rcases x with ⟨c, k⟩; exact Prod.ext (Mean.add_add_neg c k) (Mean.neg_neg k)

theorem neg_ne_zero_iff (k : Fin 32) : neg k ≠ 0 ↔ k ≠ 0 := by revert k; decide

omit [FloatOps F] in
/-- Re-indexing along the ring hands each duty's token to the device that pays it. -/
theorem toks_around : (bigSep Finset.univ fun c : Dev nD => (toks c : sProp 𝕄)) ⊢ bigSep Finset.univ fun c : Dev nD => payToks c := by
  have h1 : (bigSep Finset.univ fun c : Dev nD => bigSep (Finset.univ.filter fun k : Fin 32 => k ≠ 0) fun j => (dutyTok ER (barCell c) 0 j : sProp 𝕄))
      = bigSep Finset.univ fun c : Dev nD => bigSep (Finset.univ.filter fun k : Fin 32 => k ≠ 0) fun k => dutyTok ER (barCell (add c k)) 0 k :=
    bigSep_reindex (fun k : Fin 32 => k ≠ 0) addPair (fun _ => Iff.rfl) (fun x : Dev nD × Fin 32 => (dutyTok ER (barCell x.1) 0 x.2 : sProp 𝕄))
  have h2 : (bigSep Finset.univ fun c : Dev nD => bigSep (Finset.univ.filter fun k : Fin 32 => k ≠ 0) fun j => (dutyTok ER (recvCell c j) 0 0 : sProp 𝕄))
      = bigSep Finset.univ fun c : Dev nD => bigSep (Finset.univ.filter fun k : Fin 32 => k ≠ 0) fun k => dutyTok ER (recvCell (add c k) (neg k)) 0 0 :=
    bigSep_reindex (fun k : Fin 32 => k ≠ 0) negPair (fun x => neg_ne_zero_iff x.2) (fun x : Dev nD × Fin 32 => (dutyTok ER (recvCell x.1 x.2) 0 0 : sProp 𝕄))
  unfold toks payToks
  rw [K31_eq, bigSep_sep', bigSep_sep', bigSep_sep', bigSep_sep', h1, h2]
  iintro ⟨H1, H2, H3⟩
  iframe H1 H3 H2

theorem regroup : (bigSep Finset.univ fun c : Dev nD => (core m c : sProp 𝕄)) ⊢ bigSep Finset.univ (G' m) := by
  have hL : (bigSep Finset.univ fun c : Dev nD => (linear c : sProp 𝕄))
      = iprop((bigSep Finset.univ fun c : Dev nD => positions c) ∗ (bigSep Finset.univ fun c : Dev nD => payToks c) ∗ bigSep Finset.univ fun c : Dev nD => spare c) := by
    unfold linear; rw [bigSep_sep', bigSep_sep']
  unfold core
  rw [bigSep_sep', bigSep_sep', bigSep_sep', bigSep_sep']
  iintro ⟨HI, HR, Hpos, Htok, Hsp⟩
  ihave HI' := (Entails.of_eq (bigSep_filter_snd (fun x : CK => x.ok) (fun ck : Dev nD × CK => iprop(∃ κ : ℕ, cellInv ER (meanRd m) κ (kcell ck)))).symm) $$ HI
  ihave HR' := (Entails.of_eq (bigSep_filter_snd (fun x : CK => x.ok) (fun ck : Dev nD × CK => (reached ER (kcell ck) 0 : sProp 𝕄))).symm) $$ HR
  icases HR' with #HR'
  ihave HK := (BI.bigSep_exists_pi allCells (fun (ck : Dev nD × CK) (κ : ℕ) => (cellInv ER (meanRd m) κ (kcell ck) : sProp 𝕄))) $$ HI'
  icases HK with ⟨%K, #HI⟩
  ihave Htk := (toks_around (F := F)) $$ Htok
  iapply (bigSep_with_persistent (R := records m K) fun c _ => ghost_intro m K c)
  isplitr
  · unfold records; isplitl; · iexact HI
    iexact HR'
  · iapply (Entails.of_eq hL.symm)
    iframe Hpos Htk Hsp

/-- One update for the whole mesh allocates every cell's invariant and deals the tokens. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

end Cert.KernelIdeal.Mean

end
-- ==== Proof.Launch.lean ====
import proofs.«900954_g7700000000000955_dist_mean_ax0_shard0_i_m512_n256_v7x_i32_bf16_1_alg».proof.Proof.Body
import proofs.«900954_g7700000000000955_dist_mean_ax0_shard0_i_m512_n256_v7x_i32_bf16_1_alg».proof.Proof.Fund

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem xstg_eq (c : Dev nD) : xstg m c = m ((c : Thread nD τ).loc main_arg0) := by
  unfold xstg
  exact Memref.read_access_unit_zero (Elt F) main_arg0 (funext fun a => Nat.zero_mul _) _ _

theorem launch_bigSep_W (Φ : Fin cfg0.W → sProp 𝕄) : bigSep Finset.univ Φ = iprop(Φ (0 : Fin 2) ∗ Φ (1 : Fin 2)) := bigSep_W0 Φ

theorem launch_owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

theorem body_obligation (c : Dev nD) : BodyObligation (dats (F := F) m 0 c) (defs₀ (F := F)) 𝒱₀ () Set.univ := fun t => by
  rw [fin_N t]
  rw [launch_bigSep_W, launch_bigSep_W]
  simp only [launch_owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2⟩
      iframe H1 H2 Hscr
    isplitl [Ho]; · iexact Ho
    isplitl [Hx] <;> iassumption
  · iintro H; iexact H

theorem ring_add_eq_iff (c d : Dev nD) (k : Fin 32) : add d k = c ↔ d = sub c k :=
  ⟨fun h => by rw [← h, sub_add], fun h => by rw [h, add_sub]⟩

theorem launch_recvS_inj : Function.Injective (recvS : Fin 32 → DmaSem sig) := fun j j' h => by
  have := congrArg Fin.val h
  rw [recvS_val, recvS_val] at this
  exact Fin.ext (by omega)

theorem launch_bar_eq_iff {a b : Dev nD} : Iff (barCell a = barCell b) (a = b) :=
  ⟨fun h => Fin.ext (congrArg (fun g : GSem nD τ sig => g.1.1.val) h), fun h => h ▸ rfl⟩
theorem launch_recv_eq_iff {a b : Dev nD} {j j' : Fin 32} : Iff (recvCell a j = recvCell b j') (a = b ∧ j = j') :=
  ⟨fun h => ⟨Fin.ext (congrArg (fun g : GSem nD τ sig => g.1.1.val) h),
      launch_recvS_inj (SemLoc.dma.inj (congrArg Prod.snd h))⟩, fun ⟨h1, h2⟩ => by rw [h1, h2]⟩
theorem launch_recv_ne_bar (a b : Dev nD) (j : Fin 32) : recvCell a j ≠ barCell b := fun h => by
  have := congrArg Prod.snd h; cases this
theorem launch_bar_ne_recv (a b : Dev nD) (j : Fin 32) : barCell b ≠ recvCell a j := fun h => launch_recv_ne_bar a b j h.symm

theorem launch_card_above0 : (above 0).card = 31 := by decide

/-- Summed over the mesh, the devices owe cell `c` exactly what its round 0 expects: each offset is reached from exactly one device. -/
theorem sum_owed_bar (c : Dev nD) : ∑ d : Dev nD, O₀ d (barCell c) () = 31 := by
  have h (d : Dev nD) : O₀ d (barCell c) () = ∑ k ∈ above 0, if add d k = c then 1 else 0 := by
    unfold O₀ Osend Osig
    rw [Pi.add_apply, Finsupp.add_apply, Finset.sum_apply, Finsupp.finsetSum_apply, Finset.sum_apply, Finsupp.finsetSum_apply,
      Finset.sum_eq_zero (s := above 0) (f := fun k => tallyAt (recvCell (add d k) (neg k)) () N (barCell c) ())
        (fun k _ => by rw [tallyAt_ne_cell (launch_bar_ne_recv _ _ _)]; rfl), Nat.zero_add]
    refine Finset.sum_congr rfl fun k _ => ?_
    rw [tallyAt_apply]
    by_cases hk : add d k = c
    · rw [if_pos hk, if_pos ⟨by rw [hk], rfl⟩]
    · rw [if_neg hk, if_neg fun h' => hk (launch_bar_eq_iff.mp h'.1).symm]
  rw [Finset.sum_congr rfl fun d _ => h d, Finset.sum_comm,
    Finset.sum_congr rfl fun k _ => show (∑ d : Dev nD, if add d k = c then 1 else 0) = 1 from by
      rw [Finset.sum_congr rfl fun d _ => if_congr (ring_add_eq_iff c d k) rfl rfl, Finset.sum_ite_eq' Finset.univ (sub c k) fun _ => 1,
        if_pos (Finset.mem_univ _)],
    Finset.sum_const, launch_card_above0, smul_eq_mul]

theorem sum_owed_recv (c : Dev nD) (j : Fin 32) (hj : j ≠ 0) : ∑ d : Dev nD, O₀ d (recvCell c j) () = N := by
  have h (d : Dev nD) : O₀ d (recvCell c j) () = ∑ k ∈ above 0, if add d k = c ∧ neg k = j then N else 0 := by
    unfold O₀ Osend Osig
    rw [Pi.add_apply, Finsupp.add_apply, Finset.sum_apply, Finsupp.finsetSum_apply, Finset.sum_apply, Finsupp.finsetSum_apply,
      Finset.sum_eq_zero (s := above 0) (f := fun k => tallyAt (barCell (add d k)) () 1 (recvCell c j) ())
        (fun k _ => by rw [tallyAt_ne_cell (launch_recv_ne_bar _ _ _)]; rfl), Nat.add_zero]
    refine Finset.sum_congr rfl fun k _ => ?_
    rw [tallyAt_apply]
    by_cases hk : add d k = c ∧ neg k = j
    · rw [if_pos hk, if_pos ⟨by rw [hk.1, hk.2], rfl⟩]
    · rw [if_neg hk, if_neg fun h' => hk ((launch_recv_eq_iff.mp h'.1).imp Eq.symm Eq.symm)]
  have hin (k : Fin 32) : (∑ d : Dev nD, if add d k = c ∧ neg k = j then N else 0) = if k = neg j then N else 0 := by
    by_cases hk : k = neg j
    · subst hk
      rw [if_pos rfl, Finset.sum_congr rfl fun d _ => if_congr (show (add d (neg j) = c ∧ neg (neg j) = j) ↔ d = sub c (neg j) from
          ⟨fun h => (ring_add_eq_iff c d _).mp h.1, fun h => ⟨(ring_add_eq_iff c d _).mpr h, neg_neg j⟩⟩) rfl rfl,
        Finset.sum_ite_eq' Finset.univ (sub c (neg j)) fun _ => N, if_pos (Finset.mem_univ _)]
    · rw [if_neg hk]
      exact Finset.sum_eq_zero fun d _ => if_neg fun h => hk (by rw [← h.2, neg_neg])
  have hmem : neg j ∈ above 0 :=
    Finset.mem_filter.mpr ⟨Finset.mem_univ (neg j), Nat.pos_of_ne_zero fun h => neg_ne_zero j hj (Fin.ext h)⟩
  rw [Finset.sum_congr rfl fun d _ => h d, Finset.sum_comm, Finset.sum_congr rfl fun k _ => hin k,
    Finset.sum_ite_eq' (above 0) (neg j) fun _ => N, if_pos hmem]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, sum_owed_bar]

theorem launch_recv (c : Dev nD) (j : Fin 32) (hj : j ≠ 0) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, sum_owed_recv c j hj]

def launch_recvEmb : Fin 32 ↪ SemLoc sig := ⟨fun j => .dma (recvS j), fun j j' h => launch_recvS_inj (SemLoc.dma.inj h)⟩

theorem launch_creds (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := K31.map launch_recvEmb) fun sm h => ?_).trans ?_
  · obtain ⟨j, _, rfl⟩ := Finset.mem_map.mp h
    exact Finset.mem_erase.mpr ⟨fun h => (by cases h), Finset.mem_univ _⟩
  · rw [bigSep_map]
    exact bigSep_mono fun j hj => Entails.of_eq (congrArg cred (launch_recv c j (Finset.mem_erase.mp hj).1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · iframe HG Hc Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchAny
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratchAny
  iintro ⟨⟨%f, Hr⟩, HzS, HzV⟩
  isplitr; · iempintro
  isplitl [HzS HzV]
  · isplitl [HzS] <;> iassumption
  iexists f; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

theorem launch_share_eq (c : Dev nD) (w : Fin cfg0.W) : (dats m 0 c).share w = fullShare := by unfold Dat.share; split <;> rfl

theorem launch_L_of_ne (g : GSem nD τ sig) (h : g.1.2 ≠ .tc) : L g = ∅ := if_neg h

/-- Every weakly fair run of the mesh terminates with `x` unchanged and each device's result at `outF`. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := launch_share_eq m)
    (hdistinct := winFacts0.arr_inj)
    (O₀ := O₀) (howed₀ := fun _ => rfl) (howedN := fun _ => rfl)
    (L := L) (lv := lv) (hL := launch_L_of_ne) (hwaits := waits m)
    (G := G m) (G' := G' m) (u₀ := u₀)
    (hu₀ := fund_u₀ m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m c (0 : Fin 2) = m (win0_0.arr.view.loc (c : Thread nD τ)) :=
  (dats (F := F) m 0 c).arrAt_in (0 : Fin 2) rfl _

theorem finalA_out (c : Dev nD) : finalA m c (1 : Fin 2) = outF m c := by
  have h := (dats (F := F) m 0 c).arrAt_succ (1 : Fin 2) t₀
  rw [flush0_1 t₀, if_pos rfl] at h
  refine (show finalA m c (1 : Fin 2) = (dats m 0 c).arrAt (1 : Fin 2) (t₀.val + 1) from rfl).trans (h.trans ?_)
  exact Memref.write_access_unit_zero_univ (Elt F) main_v1 (funext fun a => Nat.zero_mul _) _ _ _

end Cert.KernelIdeal.Mean

end
-- ==== Proof.Bits.Spec.lean ====
import proofs.«900954_g7700000000000955_dist_mean_ax0_shard0_i_m512_n256_v7x_i32_bf16_1_alg».proof.Proof.Gen.Kernel.Skeleton
import Idealize.ShloMosaic.Lib.ValueIdx

noncomputable section

namespace Cert.Kernel.Mean

open Cert.Kernel Cert.Kernel.Gen
open Idealize.ShloMosaic Idealize.ShloMosaic.ValueIdx

variable {F : FTy → Type} [FloatOps F]

/-- The device `k` places after `c` on the ring of 32. -/
def add (c : Dev nD) (k : Fin 32) : Dev nD := ⟨(c.val + k.val) % 32, Nat.mod_lt _ (by decide)⟩

def sub (c : Dev nD) (k : Fin 32) : Dev nD := ⟨(c.val + (32 - k.val)) % 32, Nat.mod_lt _ (by decide)⟩

def neg (k : Fin 32) : Fin 32 := ⟨(32 - k.val) % 32, Nat.mod_lt _ (by decide)⟩

theorem add_zero (c : Dev nD) : add c 0 = c := by revert c; decide
theorem sub_add (c : Dev nD) (k : Fin 32) : sub (add c k) k = c := by revert c k; decide
theorem add_sub (c : Dev nD) (k : Fin 32) : add (sub c k) k = c := by revert c k; decide
theorem add_add_neg (c : Dev nD) (k : Fin 32) : add (add c k) (neg k) = c := by revert c k; decide
theorem sub_eq_add_neg (c : Dev nD) (k : Fin 32) : sub c k = add c (neg k) := by revert c k; decide
theorem neg_neg (k : Fin 32) : neg (neg k) = k := by revert k; decide
theorem neg_ne_zero (k : Fin 32) (h : k ≠ 0) : neg k ≠ 0 := by revert k; decide

/-- Row `r` of device `c`'s 32 × 256 array: the column sums of the block of the device `r` places after `c`. -/
def accOf (xs : Dev nD → Vec F S512x256 .f32) (c : Dev nD) : Vec F S32x256 .f32 :=
  fun i => k0_pay1 (xs (add c (i 0))) (ix2 (0 : Fin 1) (i 1))

/-- Device `c`'s result: the 32 rows added up and scaled by 2⁻¹⁴. -/
def outOf (xs : Dev nD → Vec F S512x256 .f32) (c : Dev nD) : Vec F S1x256 .f32 :=
  k0_pay3 (k0_pay2 (accOf xs c))

end Cert.Kernel.Mean

end
-- ==== Proof.Bits.DevEq.lean ====
import proofs.«900954_g7700000000000955_dist_mean_ax0_shard0_i_m512_n256_v7x_i32_bf16_1_alg».proof.Proof.Gen.Kernel
import proofs.«900954_g7700000000000955_dist_mean_ax0_shard0_i_m512_n256_v7x_i32_bf16_1_alg».proof.Proof.Bits.Spec

namespace Cert.Kernel.Mean

open Cert.Kernel Cert.Kernel.Gen Idealize.ShloMosaic

/-- The word arithmetic `f` names, from every device, the device `k` places on: decidable over the 32 devices. -/
abbrev Chain (f : Dev nD → ℕ) (hf : ∀ c, f c < nD) (k : Fin 32) : Prop := ∀ c, (⟨f c, hf c⟩ : Dev nD) = add c k

theorem dev_eq_1 : Chain k0_dev1 k0_dev1_lt 1 := by decide +kernel
theorem dev_eq_2 : Chain k0_dev2 k0_dev2_lt 2 := by decide +kernel
theorem dev_eq_3 : Chain k0_dev3 k0_dev3_lt 3 := by decide +kernel
theorem dev_eq_4 : Chain k0_dev4 k0_dev4_lt 4 := by decide +kernel
theorem dev_eq_5 : Chain k0_dev5 k0_dev5_lt 5 := by decide +kernel
theorem dev_eq_6 : Chain k0_dev6 k0_dev6_lt 6 := by decide +kernel
theorem dev_eq_7 : Chain k0_dev7 k0_dev7_lt 7 := by decide +kernel
theorem dev_eq_8 : Chain k0_dev8 k0_dev8_lt 8 := by decide +kernel
theorem dev_eq_9 : Chain k0_dev9 k0_dev9_lt 9 := by decide +kernel
theorem dev_eq_10 : Chain k0_dev10 k0_dev10_lt 10 := by decide +kernel
theorem dev_eq_11 : Chain k0_dev11 k0_dev11_lt 11 := by decide +kernel
theorem dev_eq_12 : Chain k0_dev12 k0_dev12_lt 12 := by decide +kernel
theorem dev_eq_13 : Chain k0_dev13 k0_dev13_lt 13 := by decide +kernel
theorem dev_eq_14 : Chain k0_dev14 k0_dev14_lt 14 := by decide +kernel
theorem dev_eq_15 : Chain k0_dev15 k0_dev15_lt 15 := by decide +kernel
theorem dev_eq_16 : Chain k0_dev16 k0_dev16_lt 16 := by decide +kernel
theorem dev_eq_17 : Chain k0_dev17 k0_dev17_lt 17 := by decide +kernel
theorem dev_eq_18 : Chain k0_dev18 k0_dev18_lt 18 := by decide +kernel
theorem dev_eq_19 : Chain k0_dev19 k0_dev19_lt 19 := by decide +kernel
theorem dev_eq_20 : Chain k0_dev20 k0_dev20_lt 20 := by decide +kernel
theorem dev_eq_21 : Chain k0_dev21 k0_dev21_lt 21 := by decide +kernel
theorem dev_eq_22 : Chain k0_dev22 k0_dev22_lt 22 := by decide +kernel
theorem dev_eq_23 : Chain k0_dev23 k0_dev23_lt 23 := by decide +kernel
theorem dev_eq_24 : Chain k0_dev24 k0_dev24_lt 24 := by decide +kernel
theorem dev_eq_25 : Chain k0_dev25 k0_dev25_lt 25 := by decide +kernel
theorem dev_eq_26 : Chain k0_dev26 k0_dev26_lt 26 := by decide +kernel
theorem dev_eq_27 : Chain k0_dev27 k0_dev27_lt 27 := by decide +kernel
theorem dev_eq_28 : Chain k0_dev28 k0_dev28_lt 28 := by decide +kernel
theorem dev_eq_29 : Chain k0_dev29 k0_dev29_lt 29 := by decide +kernel
theorem dev_eq_30 : Chain k0_dev30 k0_dev30_lt 30 := by decide +kernel
theorem dev_eq_31 : Chain k0_dev31 k0_dev31_lt 31 := by decide +kernel
theorem dev_eq_32 : Chain k0_dev32 k0_dev32_lt 1 := by decide +kernel
theorem dev_eq_33 : Chain k0_dev33 k0_dev33_lt 2 := by decide +kernel
theorem dev_eq_34 : Chain k0_dev34 k0_dev34_lt 3 := by decide +kernel
theorem dev_eq_35 : Chain k0_dev35 k0_dev35_lt 4 := by decide +kernel
theorem dev_eq_36 : Chain k0_dev36 k0_dev36_lt 5 := by decide +kernel
theorem dev_eq_37 : Chain k0_dev37 k0_dev37_lt 6 := by decide +kernel
theorem dev_eq_38 : Chain k0_dev38 k0_dev38_lt 7 := by decide +kernel
theorem dev_eq_39 : Chain k0_dev39 k0_dev39_lt 8 := by decide +kernel
theorem dev_eq_40 : Chain k0_dev40 k0_dev40_lt 9 := by decide +kernel
theorem dev_eq_41 : Chain k0_dev41 k0_dev41_lt 10 := by decide +kernel
theorem dev_eq_42 : Chain k0_dev42 k0_dev42_lt 11 := by decide +kernel
theorem dev_eq_43 : Chain k0_dev43 k0_dev43_lt 12 := by decide +kernel
theorem dev_eq_44 : Chain k0_dev44 k0_dev44_lt 13 := by decide +kernel
theorem dev_eq_45 : Chain k0_dev45 k0_dev45_lt 14 := by decide +kernel
theorem dev_eq_46 : Chain k0_dev46 k0_dev46_lt 15 := by decide +kernel
theorem dev_eq_47 : Chain k0_dev47 k0_dev47_lt 16 := by decide +kernel
theorem dev_eq_48 : Chain k0_dev48 k0_dev48_lt 17 := by decide +kernel
theorem dev_eq_49 : Chain k0_dev49 k0_dev49_lt 18 := by decide +kernel
theorem dev_eq_50 : Chain k0_dev50 k0_dev50_lt 19 := by decide +kernel
theorem dev_eq_51 : Chain k0_dev51 k0_dev51_lt 20 := by decide +kernel
theorem dev_eq_52 : Chain k0_dev52 k0_dev52_lt 21 := by decide +kernel
theorem dev_eq_53 : Chain k0_dev53 k0_dev53_lt 22 := by decide +kernel
theorem dev_eq_54 : Chain k0_dev54 k0_dev54_lt 23 := by decide +kernel
theorem dev_eq_55 : Chain k0_dev55 k0_dev55_lt 24 := by decide +kernel
theorem dev_eq_56 : Chain k0_dev56 k0_dev56_lt 25 := by decide +kernel
theorem dev_eq_57 : Chain k0_dev57 k0_dev57_lt 26 := by decide +kernel
theorem dev_eq_58 : Chain k0_dev58 k0_dev58_lt 27 := by decide +kernel
theorem dev_eq_59 : Chain k0_dev59 k0_dev59_lt 28 := by decide +kernel
theorem dev_eq_60 : Chain k0_dev60 k0_dev60_lt 29 := by decide +kernel
theorem dev_eq_61 : Chain k0_dev61 k0_dev61_lt 30 := by decide +kernel
theorem dev_eq_62 : Chain k0_dev62 k0_dev62_lt 31 := by decide +kernel

end Cert.Kernel.Mean
-- ==== Proof.Bits.Sched.lean ====
import proofs.«900954_g7700000000000955_dist_mean_ax0_shard0_i_m512_n256_v7x_i32_bf16_1_alg».proof.Proof.Gen.Kernel
import proofs.«900954_g7700000000000955_dist_mean_ax0_shard0_i_m512_n256_v7x_i32_bf16_1_alg».proof.Proof.Gen.Kernel.Skeleton
import proofs.«900954_g7700000000000955_dist_mean_ax0_shard0_i_m512_n256_v7x_i32_bf16_1_alg».proof.Proof.Gen.Kernel.Launch
import proofs.«900954_g7700000000000955_dist_mean_ax0_shard0_i_m512_n256_v7x_i32_bf16_1_alg».proof.Proof.Gen.Kernel.Points
import proofs.«900954_g7700000000000955_dist_mean_ax0_shard0_i_m512_n256_v7x_i32_bf16_1_alg».proof.Proof.Bits.Spec
import proofs.«900954_g7700000000000955_dist_mean_ax0_shard0_i_m512_n256_v7x_i32_bf16_1_alg».proof.Proof.Bits.DevEq
import Idealize.ShloMosaic.Lib.Pipeline.Launch
import Idealize.ShloMosaic.Lib.Pipeline.Kit
import Idealize.ShloMosaic.Lib.Tactic

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev xM : Memref sig .tc .vmem S512x256 .f32 := Memref.whole cc0_stg0_0
abbrev oM : Memref sig .tc .vmem S1x256 .f32 := Memref.whole cc0_stg1_0
abbrev aM : Memref sig .tc .vmem S32x256 .f32 := Memref.whole cc0_scratch0

theorem inb_row (j : Fin 32) : ∀ a, (![j.val, 0] : Fin 2 → Nat) a + S1x256.size a ≤ S32x256.size a := by
  revert j; decide

abbrev rowM (j : Fin 32) : Memref sig .tc .vmem S1x256 .f32 :=
  aM.slice (Rect.unit (s := S32x256) ![j.val, 0] S1x256.size (inb_row j)) (fun _ => rfl)

theorem inb_sem (k : Fin 32) : ∀ a, (![k.val] : Fin 1 → Nat) a + S1.size a ≤ S32.size a := by
  revert k; decide

abbrev barS : Sem sig := (SemArray.scalar (sig.barrier 0 rfl) : Sems sig S_).sem

abbrev sendS (k : Fin 32) : DmaSem sig :=
  ((cc0_scratch1.slice (Rect.unit (s := S32) ![k.val] S1.size (inb_sem k))).squeeze S_ squeezes_S1_S_).sem
abbrev recvS (j : Fin 32) : DmaSem sig :=
  ((cc0_scratch2.slice (Rect.unit (s := S32) ![j.val] S1.size (inb_sem j))).squeeze S_ squeezes_S1_S_).sem

abbrev barCell (c : Dev nD) : GSem nD τ sig := ((c : Thread nD τ), .reg barS)
abbrev sendCell (c : Dev nD) (k : Fin 32) : GSem nD τ sig := ((c : Thread nD τ), .dma (sendS k))
abbrev recvCell (c : Dev nD) (j : Fin 32) : GSem nD τ sig := ((c : Thread nD τ), .dma (recvS j))
/-- Send (`false`) or receive (`true`) semaphore `k`, and its cell on device `c`. -/
abbrev xS : Bool → Fin 32 → DmaSem sig
  | false => sendS
  | true => recvS
abbrev xCell (c : Dev nD) (b : Bool) (k : Fin 32) : GSem nD τ sig := ((c : Thread nD τ), .dma (xS b k))

abbrev N : ℕ := (rowM 0).view.dmaCredit

def dmaIx (q : DmaSem sig) : Option (Bool × Fin 32) :=
  if h : 3 ≤ q.val ∧ q.val < 34 then some (false, ⟨q.val - 2, by omega⟩)
  else if h : 35 ≤ q.val ∧ q.val < 66 then some (true, ⟨q.val - 34, by omega⟩) else none

def xstg (c : Dev nD) : (cc0_stg0_0 : Ref sig .tc).ty.Contents (Elt F) :=
  (win0_0.blk (0 : Fin 1)).view.read (Elt F) (m ((c : Thread nD τ).loc main_arg0))

def accF (c : Dev nD) : (cc0_scratch0 : Ref sig .tc).ty.Contents (Elt F) := accOf (xstg m) c
def outF (c : Dev nD) : (cc0_stg1_0 : Ref sig .tc).ty.Contents (Elt F) := outOf (xstg m) c

/-- The left half of a full share after `n` pieces have been cut off it; `piece k` is the `k`-th piece. -/
def remL : ℕ → PosShare TreeShare
  | 0 => fullShare.left
  | n + 1 => (remL n).right
def piece (k : ℕ) : PosShare TreeShare := (remL (k - 1)).left

abbrev keepQ : PosShare TreeShare := fullShare.right

def rowPts (c : Dev nD) (j : Fin 32) (q : PosShare TreeShare) (f : Buf (Elt F) ((c : Thread nD τ).loc cc0_scratch0)) : sProp 𝕄 :=
  ((c : Thread nD τ).loc cc0_scratch0) ↦[(rowM j).view.set]{q} f

def barPay (c : Dev nD) (j : Fin 32) : sProp 𝕄 :=
  iprop((∃ f, rowPts (sub c j) j fullShare f) ∗ reached ER (recvCell (sub c j) j) 0)
def recvPay (c : Dev nD) (j : Fin 32) : sProp 𝕄 := rowPts c j fullShare (accF m c)
def sendPay (c : Dev nD) (k : Fin 32) : sProp 𝕄 := rowPts c 0 (piece k.val) (accF m c)
def xPay (c : Dev nD) : Bool → Fin 32 → sProp 𝕄
  | false => sendPay m c
  | true => recvPay m c

theorem N_pos : 0 < N := View.dmaCredit_pos _ (by decide)

/-- All units come in round 0: cell `c`'s barrier duty `j` is paid by the device `j` places before `c`, its send and receive cells have one duty each, worth one row. -/
def meanRd : Rounds.Schedule (GSem nD τ sig) (Fin 32) 𝕄 where
  duties g r :=
    if r = 0 ∧ g.1.2 = .tc then
      (match g.2 with
        | .reg s => if s = barS then Finset.univ.erase 0 else ∅
        | .dma q => if (dmaIx q).isSome then {0} else ∅)
    else ∅
  amount g _ _ := match g.2 with | .reg _ => 1 | .dma _ => N
  payload g _ d := match g.2 with
    | .reg _ => barPay g.1.1 d
    | .dma q => match dmaIx q with
      | some (false, k) => sendPay m g.1.1 k
      | some (true, j) => recvPay m g.1.1 j
      | none => iprop(emp)
  amount_pos g _ _ _ := by
    cases g.2 with
    | reg _ => exact Nat.one_pos
    | dma _ => exact N_pos

abbrev K31 : Finset (Fin 32) := Finset.univ.erase 0

abbrev above (i : ℕ) : Finset (Fin 32) := Finset.univ.filter fun k : Fin 32 => i < k.val

/-- What device `c` still owes after its first `i` signals, and after its first `i` copies. -/
def Osig (c : Dev nD) (i : ℕ) : CellTallies nD τ sig Unit := ∑ k ∈ above i, tallyAt (barCell (add c k)) () 1

def Osend (c : Dev nD) (i : ℕ) : CellTallies nD τ sig Unit := ∑ k ∈ above i, tallyAt (recvCell (add c k) (neg k)) () N
def O₀ (c : Dev nD) : CellTallies nD τ sig Unit := Osend c 0 + Osig c 0

def L (g : GSem nD τ sig) : Finset Unit := if g.1.2 = .tc then {()} else ∅

/-- Receive cells lie above barrier cells, and those above everything else: a wait is always below what its waiter owes. -/
def lv (g : GSem nD τ sig) (_ : Unit) : ℕ :=
  match g.2 with
  | .reg _ => 1
  | .dma q => match dmaIx q with
    | some (true, _) => 2
    | _ => 0

end Cert.Kernel.Mean

end
-- ==== Proof.Bits.Data.lean ====
import proofs.«900954_g7700000000000955_dist_mean_ax0_shard0_i_m512_n256_v7x_i32_bf16_1_alg».proof.Proof.Bits.Sched

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

inductive CK where
  | bar
  | send (k : Fin 32)
  | recv (j : Fin 32)
  deriving DecidableEq, Fintype

def CK.ok : CK → Prop
  | .bar => True
  | .send k => k ≠ 0
  | .recv j => j ≠ 0
instance : DecidablePred CK.ok := fun x => by cases x <;> unfold CK.ok <;> infer_instance

abbrev csem : CK → SemLoc sig
  | .bar => .reg barS
  | .send k => .dma (sendS k)
  | .recv j => .dma (recvS j)
abbrev xCK : Bool → Fin 32 → CK
  | false => .send
  | true => .recv
abbrev kcell (ck : Dev nD × CK) : GSem nD τ sig := ((ck.1 : Thread nD τ), csem ck.2)

abbrev allCells : Finset (Dev nD × CK) := Finset.univ.filter fun ck => ck.2.ok

/-- Every cell's invariant and round-0 mark: persistent, shared by all devices. -/
def records (K : Dev nD × CK → ℕ) : sProp 𝕄 :=
  iprop((bigSep allCells fun ck => cellInv ER (meanRd m) (K ck) (kcell ck))
    ∗ bigSep allCells fun ck => reached ER (kcell ck) 0)

instance records_persistent (K : Dev nD × CK → ℕ) : BI.Persistent (records m K) := by unfold records; infer_instance

def positions (c : Dev nD) : sProp 𝕄 :=
  iprop(atPos ER (barCell c) 0 ∅ 0
    ∗ (bigSep K31 fun k => atPos ER (sendCell c k) 0 ∅ 0) ∗ (bigSep K31 fun j => atPos ER (recvCell c j) 0 ∅ 0))

def payToks (c : Dev nD) : sProp 𝕄 :=
  iprop((bigSep K31 fun k => dutyTok ER (barCell (add c k)) 0 k)
    ∗ (bigSep K31 fun k => dutyTok ER (recvCell (add c k) (neg k)) 0 0)
    ∗ (bigSep K31 fun k => dutyTok ER (sendCell c k) 0 0))

def spare (c : Dev nD) : sProp 𝕄 := iprop(semVal (sendCell c 0) 0 ∗ semVal (recvCell c 0) 0)

def ghost (K : Dev nD × CK → ℕ) (c : Dev nD) : sProp 𝕄 :=
  iprop(records m K ∗ positions c ∗ payToks c ∗ spare c)

def creds (c : Dev nD) : sProp 𝕄 :=
  iprop(cred (tallyAt (barCell c) () 31) ∗ bigSep K31 fun j => cred (tallyAt (recvCell c j) () N))

def start (c : Dev nD) : sProp 𝕄 := iprop((∃ K, ghost m K c) ∗ creds c ∗ levAts L lv)

def scratchAny (c : Dev nD) : sProp 𝕄 :=
  iprop(∃ f : Buf (Elt F) ((c : Thread nD τ).loc cc0_scratch0), ((c : Thread nD τ).loc cc0_scratch0) ↦{fullShare} f)

def Φ₀ (c : Dev nD) : sProp 𝕄 := iprop(start m c ∗ scratchAny c)

def Φ₁ (c : Dev nD) : sProp 𝕄 :=
  iprop(scratchAny c ∗ (bigSep Finset.univ fun k : Fin 32 => semVal (sendCell c k) 0) ∗ bigSep Finset.univ fun j : Fin 32 => semVal (recvCell c j) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What a device holds before its body, and after it. -/
def bodyPre (K : Dev nD × CK → ℕ) (c : Dev nD) : sProp 𝕄 :=
  iprop((ghost m K c ∗ creds c ∗ levAts L lv ∗ scratchAny c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outF m c))

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Cert.Kernel.Mean

end
-- ==== Proof.Bits.Tables.lean ====
import proofs.«900954_g7700000000000955_dist_mean_ax0_shard0_i_m512_n256_v7x_i32_bf16_1_alg».proof.Proof.Bits.Sched

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem sendS_val (k : Fin 32) : (sendS k).val = 2 + k.val := by revert k; decide
theorem recvS_val (j : Fin 32) : (recvS j).val = 34 + j.val := by revert j; decide
theorem dmaIx_send (k : Fin 32) (hk : k ≠ 0) : dmaIx (sendS k) = some (false, k) := by revert k; decide
theorem dmaIx_recv (j : Fin 32) (hj : j ≠ 0) : dmaIx (recvS j) = some (true, j) := by revert j; decide

theorem credit_row (j : Fin 32) : (rowM j).view.dmaCredit = N := by revert j; decide

theorem duties_bar (c : Dev nD) : (meanRd (F := F) m).duties (barCell c) 0 = K31 := by
  dsimp only [meanRd]; rw [if_pos ⟨rfl, rfl⟩]; exact if_pos rfl
theorem duties_send (c : Dev nD) (k : Fin 32) (hk : k ≠ 0) : (meanRd (F := F) m).duties (sendCell c k) 0 = {0} := by
  dsimp only [meanRd]; rw [if_pos ⟨rfl, rfl⟩, dmaIx_send k hk]; rfl
theorem duties_recv (c : Dev nD) (j : Fin 32) (hj : j ≠ 0) : (meanRd (F := F) m).duties (recvCell c j) 0 = {0} := by
  dsimp only [meanRd]; rw [if_pos ⟨rfl, rfl⟩, dmaIx_recv j hj]; rfl
theorem duties_later (g : GSem nD τ sig) : ∀ r, 1 ≤ r → (meanRd (F := F) m).duties g r = ∅ :=
  fun r hr => by dsimp only [meanRd]; rw [if_neg fun h => by omega]

theorem amount_bar (c : Dev nD) (d : Fin 32) : (meanRd (F := F) m).amount (barCell c) 0 d = 1 := rfl
theorem amount_send (c : Dev nD) (k d : Fin 32) : (meanRd (F := F) m).amount (sendCell c k) 0 d = N := rfl
theorem amount_recv (c : Dev nD) (j d : Fin 32) : (meanRd (F := F) m).amount (recvCell c j) 0 d = N := rfl

theorem expect_bar (c : Dev nD) : (meanRd (F := F) m).expect (barCell c) 0 = 31 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
theorem expect_send (c : Dev nD) (k : Fin 32) (hk : k ≠ 0) : (meanRd (F := F) m).expect (sendCell c k) 0 = N := by
  unfold Schedule.expect Schedule.amountOf; rw [duties_send m c k hk, Finset.sum_singleton, amount_send]
theorem expect_recv (c : Dev nD) (j : Fin 32) (hj : j ≠ 0) : (meanRd (F := F) m).expect (recvCell c j) 0 = N := by
  unfold Schedule.expect Schedule.amountOf; rw [duties_recv m c j hj, Finset.sum_singleton, amount_recv]

theorem payload_bar (c : Dev nD) (j : Fin 32) : (meanRd (F := F) m).payload (barCell c) 0 j = barPay c j := rfl
theorem payload_send (c : Dev nD) (k : Fin 32) (hk : k ≠ 0) (d : Fin 32) : (meanRd (F := F) m).payload (sendCell c k) 0 d = sendPay m c k := by
  dsimp only [meanRd]; rw [dmaIx_send k hk]
theorem payload_recv (c : Dev nD) (j : Fin 32) (hj : j ≠ 0) (d : Fin 32) : (meanRd (F := F) m).payload (recvCell c j) 0 d = recvPay m c j := by
  dsimp only [meanRd]; rw [dmaIx_recv j hj]

instance meanRd_payload_storable (g : GSem nD τ sig) (r : ℕ) (d : Fin 32) :
    BI.Storable (upEmb : UEmb _ 𝕄) ((meanRd (F := F) m).payload g r d) := by
  obtain ⟨p, s | q⟩ := g
  · show BI.Storable upEmb (barPay p.1 d)
    unfold barPay rowPts; infer_instance
  · show BI.Storable upEmb (match dmaIx q with
      | some (false, k) => sendPay m p.1 k
      | some (true, j) => recvPay m p.1 j
      | none => iprop(emp))
    unfold sendPay recvPay rowPts
    split <;> infer_instance

theorem above_pred (k : Fin 32) (hk : k ≠ 0) : above (k.val - 1) = insert k (above k.val) := by
  have hk' : 0 < k.val := Nat.pos_of_ne_zero fun h => hk (Fin.ext h)
  ext x
  rw [Finset.mem_insert, Finset.mem_filter, Finset.mem_filter, Fin.ext_iff]
  constructor
  · rintro ⟨_, h⟩
    by_cases hx : x.val = k.val
    · exact Or.inl hx
    · exact Or.inr ⟨Finset.mem_univ _, by omega⟩
  · rintro (h | ⟨_, h⟩)
    · exact ⟨Finset.mem_univ _, by omega⟩
    · exact ⟨Finset.mem_univ _, by omega⟩
theorem not_mem_above (k : Fin 32) : k ∉ above k.val := fun h => Nat.lt_irrefl _ (Finset.mem_filter.mp h).2

theorem above_31 : above 31 = ∅ := Finset.filter_eq_empty_iff.mpr fun x _ => by have := x.isLt; omega
theorem ne_zero_of_mem_above {i : ℕ} {k : Fin 32} (h : k ∈ above i) : k ≠ 0 := fun h0 => by
  have := (Finset.mem_filter.mp h).2; rw [h0] at this; exact Nat.not_lt_zero _ this

theorem Osig_peel (c : Dev nD) (k : Fin 32) (hk : k ≠ 0) : Osig c (k.val - 1) = Osig c k.val + tallyAt (barCell (add c k)) () 1 := by
  unfold Osig; rw [above_pred k hk, Finset.sum_insert (not_mem_above k), add_comm]
theorem Osend_peel (c : Dev nD) (k : Fin 32) (hk : k ≠ 0) : Osend c (k.val - 1) = Osend c k.val + tallyAt (recvCell (add c k) (neg k)) () N := by
  unfold Osend; rw [above_pred k hk, Finset.sum_insert (not_mem_above k), add_comm]
theorem Osig_done (c : Dev nD) : Osig c 31 = 0 := by unfold Osig; rw [above_31, Finset.sum_empty]
theorem Osend_done (c : Dev nD) : Osend c 31 = 0 := by unfold Osend; rw [above_31, Finset.sum_empty]

theorem L_tc (c : Dev nD) (sm : SemLoc sig) : L ((c : Thread nD τ), sm) = {()} := if_pos rfl

theorem Osig_pos {c : Dev nD} {i : ℕ} {g : GSem nD τ sig} {u : Unit} (h : 0 < Osig c i g u) :
    ∃ k : Fin 32, k ≠ 0 ∧ g = barCell (add c k) := by
  unfold Osig at h
  rw [Finset.sum_apply, Finsupp.finset_sum_apply] at h
  by_contra hn
  rw [Finset.sum_eq_zero fun k hk => by
    rw [tallyAt_apply, if_neg fun h' => hn ⟨k, ne_zero_of_mem_above hk, h'.1⟩]] at h
  exact Nat.lt_irrefl 0 h

theorem Osend_pos {c : Dev nD} {i : ℕ} {g : GSem nD τ sig} {u : Unit} (h : 0 < Osend c i g u) :
    ∃ k : Fin 32, k ≠ 0 ∧ g = recvCell (add c k) (neg k) := by
  unfold Osend at h
  rw [Finset.sum_apply, Finsupp.finset_sum_apply] at h
  by_contra hn
  rw [Finset.sum_eq_zero fun k hk => by
    rw [tallyAt_apply, if_neg fun h' => hn ⟨k, ne_zero_of_mem_above hk, h'.1⟩]] at h
  exact Nat.lt_irrefl 0 h

theorem lv_bar (c : Dev nD) : lv (barCell c) () = 1 := rfl
theorem lv_recv (c : Dev nD) (j : Fin 32) (hj : j ≠ 0) : lv (recvCell c j) () = 2 := by
  dsimp only [lv]; rw [dmaIx_recv j hj]
theorem lv_stage (c : Dev nD) (q : DmaSem sig) (hq : ∀ j, dmaIx q ≠ some (true, j)) : lv ((c : Thread nD τ), .dma q) () = 0 := by
  dsimp only [lv]
  split
  · exact absurd ‹_› (hq _)
  · rfl

theorem Osend_lv {c : Dev nD} {i : ℕ} {g : GSem nD τ sig} {u : Unit} (h : 0 < Osend c i g u) : u ∈ L g ∧ lv g u = 2 := by
  cases u
  obtain ⟨k, hk, rfl⟩ := Osend_pos h
  exact ⟨by rw [L_tc]; exact Finset.mem_singleton_self _, lv_recv _ _ (neg_ne_zero k hk)⟩

theorem Osig_lv {c : Dev nD} {i : ℕ} {g : GSem nD τ sig} {u : Unit} (h : 0 < Osig c i g u) : u ∈ L g ∧ lv g u = 1 := by
  cases u
  obtain ⟨k, hk, rfl⟩ := Osig_pos h
  exact ⟨by rw [L_tc]; exact Finset.mem_singleton_self _, lv_bar _⟩

theorem O₀_lv {c : Dev nD} {g : GSem nD τ sig} {u : Unit} (h : 0 < O₀ c g u) : u ∈ L g ∧ 0 < lv g u := by
  unfold O₀ at h
  rw [Pi.add_apply, Finsupp.add_apply] at h
  by_cases h1 : 0 < Osend c 0 g u
  · obtain ⟨hL, hl⟩ := Osend_lv h1; exact ⟨hL, by rw [hl]; decide⟩
  · obtain ⟨hL, hl⟩ := Osig_lv (c := c) (i := 0) (g := g) (u := u) (by omega); exact ⟨hL, by rw [hl]; decide⟩

theorem mayWait_stage (c : Dev nD) (q : DmaSem sig) (hq : ∀ j, dmaIx q ≠ some (true, j)) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => (O₀_lv hg).1)
      (fun p hp => by rw [Finset.mem_singleton.mp hp, lv_stage c q hq])
      (fun g u hg => (O₀_lv hg).2)
  · rw [MayWait_zero]; iintro -; iempintro

theorem mayWait_bar (c : Dev nD) :
    (levAts L lv : sProp 𝕄) ⊢ MayWait (c : Thread nD τ) (.reg barS) () (Osend c 0) :=
  MayOwe.of_cut (L := L) (lev := lv) 1
    (fun p hp => by rw [Finset.mem_singleton.mp hp, L_tc]; exact Finset.mem_singleton_self _)
    (fun g u hg => (Osend_lv hg).1)
    (fun p hp => by rw [Finset.mem_singleton.mp hp]; exact le_of_eq (lv_bar c))
    (fun g u hg => by rw [(Osend_lv hg).2]; decide)

end Cert.Kernel.Mean

end
-- ==== Proof.Bits.Mem.lean ====
import proofs.«900954_g7700000000000955_dist_mean_ax0_shard0_i_m512_n256_v7x_i32_bf16_1_alg».proof.Proof.Bits.Sched
import Idealize.ShloMosaic.Lib.Pipeline.Value

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem row_set (j : Fin 32) : (rowM j).view.set
    = (Rect.unit (s := S32x256) ![j.val, 0] S1x256.size (inb_row j)).set := by
  show ((View.whole cc0_scratch0).slice _).set = _
  exact View.set_slice_whole _ _

theorem mem_row (j : Fin 32) (i : S32x256.Idx) :
    i ∈ (rowM j).view.set ↔ (i 0).val = j.val := by
  rw [row_set, Rect.mem_set_unit]
  constructor
  · intro h
    have h0 := h 0
    simp at h0
    omega
  · intro h a
    fin_cases a
    · simp
      omega
    · simp
      exact (i 1).isLt

abbrev rowK (c : Dev nD) (j : Fin 32) : Finset (Idx ((c : Thread nD τ).loc cc0_scratch0)) :=
  (rowM j).view.set

theorem mem_rowK (c : Dev nD) (j : Fin 32) (i : Idx ((c : Thread nD τ).loc cc0_scratch0)) :
    i ∈ rowK c j ↔ (i 0).val = j.val := mem_row j i

theorem rows_cover (c : Dev nD) : (Finset.univ : Finset (Idx ((c : Thread nD τ).loc cc0_scratch0)))
    = Finset.univ.biUnion (rowK c) := by
  ext i
  simp only [Finset.mem_univ, Finset.mem_biUnion, true_and, true_iff]
  exact ⟨⟨(i 0).val, (i 0).isLt⟩, (mem_rowK c _ i).mpr rfl⟩

theorem rows_disjoint (c : Dev nD) (j j' : Fin 32) (h : j ≠ j') : Disjoint (rowK c j) (rowK c j') := by
  rw [Finset.disjoint_left]
  intro i hi hi'
  rw [mem_rowK] at hi hi'
  exact h (Fin.ext (hi.symm.trans hi'))

/-- The 32 rows partition the array. -/
theorem rows_split (c : Dev nD) (q : PosShare TreeShare) (f : Buf (Elt F) ((c : Thread nD τ).loc cc0_scratch0)) :
    ((((c : Thread nD τ).loc cc0_scratch0) ↦{q} f : sProp 𝕄)) ⊣⊢ bigSep Finset.univ (fun j : Fin 32 => rowPts c j q f) := by
  show _ ⊣⊢ bigSep Finset.univ (fun j : Fin 32 => (((c : Thread nD τ).loc cc0_scratch0) ↦[rowK c j]{q} f : sProp 𝕄))
  refine BiEntails.of_eq ?_
  rw [rows_cover c]
  exact pointsTo_biUnion Finset.univ (rowK c) (fun j _ j' _ hne => rows_disjoint c j j' hne)

theorem row_congr (c : Dev nD) (j : Fin 32) (q : PosShare TreeShare) (f g : Buf (Elt F) ((c : Thread nD τ).loc cc0_scratch0))
    (h : ∀ i ∈ (rowM j).view.set, f i = g i) :
    (rowPts c j q f : sProp 𝕄) ⊢ rowPts c j q g := by
  unfold rowPts
  exact Entails.of_eq (pointsTo_congr h)

theorem row_halves (c : Dev nD) (j : Fin 32) (q : PosShare TreeShare) (f : Buf (Elt F) ((c : Thread nD τ).loc cc0_scratch0)) :
    (rowPts c j q f : sProp 𝕄) ⊣⊢ iprop(rowPts c j q.left f ∗ rowPts c j q.right f) := by
  unfold rowPts
  exact pointsTo_share (PosShare.mem_left_op_right q)

/-- The left half is its first `n` pieces and the rest, by induction on `n`. -/
theorem left_chain (c : Dev nD) (j : Fin 32) (f : Buf (Elt F) ((c : Thread nD τ).loc cc0_scratch0)) (n : ℕ) (hn : n ≤ 31) :
    (rowPts c j fullShare.left f : sProp 𝕄) ⊣⊢
      iprop(rowPts c j (remL n) f ∗ bigSep (Finset.univ.filter fun k : Fin 32 => 1 ≤ k.val ∧ k.val ≤ n) (fun k => rowPts c j (piece k.val) f)) := by
  induction n with
  | zero =>
    have he : (Finset.univ.filter fun k : Fin 32 => 1 ≤ k.val ∧ k.val ≤ 0) = ∅ := by
      ext k
      simp only [Finset.mem_filter, Finset.mem_univ, true_and, Finset.notMem_empty, iff_false]
      omega
    rw [he, bigSep_empty]
    exact ⟨BI.sep_emp_intro, BI.sep_emp_elim⟩
  | succ n ih =>
    have hlt : n + 1 < 32 := by omega
    have hins : (Finset.univ.filter fun k : Fin 32 => 1 ≤ k.val ∧ k.val ≤ n + 1)
        = insert (⟨n + 1, hlt⟩ : Fin 32) (Finset.univ.filter fun k : Fin 32 => 1 ≤ k.val ∧ k.val ≤ n) := by
      ext k
      simp only [Finset.mem_filter, Finset.mem_univ, true_and, Finset.mem_insert, Fin.ext_iff]
      omega
    have hnot : (⟨n + 1, hlt⟩ : Fin 32) ∉ (Finset.univ.filter fun k : Fin 32 => 1 ≤ k.val ∧ k.val ≤ n) := by
      simp only [Finset.mem_filter, Finset.mem_univ, true_and]
      omega
    rw [hins, bigSep_insert hnot]
    show _ ⊣⊢ iprop(rowPts c j (remL (n + 1)) f ∗ rowPts c j (piece (n + 1)) f
      ∗ bigSep (Finset.univ.filter fun k : Fin 32 => 1 ≤ k.val ∧ k.val ≤ n) (fun k => rowPts c j (piece k.val) f))
    refine (ih (by omega)).trans ?_
    have hh := row_halves (F := F) c j (remL n) f
    refine ⟨?_, ?_⟩
    · iintro ⟨H, B⟩
      ihave H' := hh.1 $$ H
      icases H' with ⟨Hl, Hr⟩
      isplitl [Hr]
      · iexact Hr
      · isplitl [Hl]
        · iexact Hl
        · iexact B
    · iintro ⟨Hr, Hl, B⟩
      isplitr [B]
      · iapply hh.2
        isplitl [Hl]
        · iexact Hl
        · iexact Hr
      · iexact B

theorem accF_apply (c : Dev nD) (i : S32x256.Idx) :
    accF m c i = k0_pay1 (xstg m (add c (i 0))) (ValueIdx.ix2 (0 : Fin 1) (i 1)) := rfl

private theorem add_of_val_zero (c : Dev nD) (k : Fin 32) (hk : k.val = 0) : add c k = c := by
  have : k = 0 := Fin.ext hk
  subst this
  exact add_zero c

private theorem add_of_val_eq (c : Dev nD) (k j : Fin 32) (hk : k.val = j.val) : add c k = add c j := by
  have : k = j := Fin.ext hk
  subst this
  rfl

theorem row_emb_one (j : Fin 32) (y : S1x256.Idx) :
    ((rowM j).view.emb y 1).val = (y 1).val := by
  show ((Rect.unit (s := S32x256) ![j.val, 0] S1x256.size (inb_row j)).emb y 1 : Nat) = _
  rw [Rect.emb_apply]
  simp

theorem stored_row0 (c : Dev nD) (f : Buf (Elt F) ((c : Thread nD τ).loc cc0_scratch0)) (i : S32x256.Idx)
    (hi : i ∈ (rowM 0).view.set) :
    (aM.access (Rect.unit (s := S32x256) ![0, 0] S1x256.size inb_S32x256_S1x256_0_0) : View sig .tc _ _ _).write (Elt F) f (k0_pay1 (xstg m c)) Finset.univ i
      = accF m c i := by
  have h0 : (i 0).val = 0 := (mem_row 0 i).mp hi
  obtain ⟨y, rfl⟩ := View.exists_emb_of_mem_set
    (aM.access (Rect.unit (s := S32x256) ![0, 0] S1x256.size inb_S32x256_S1x256_0_0) : View sig .tc _ _ _) hi
  rw [View.write_emb_of_mem _ _ (Finset.mem_univ y), cast_eq, accF_apply, add_of_val_zero c _ h0]
  congr 1
  funext a
  fin_cases a
  · refine Fin.ext ?_
    have := (y 0).isLt
    simp at this ⊢
    exact this
  · refine Fin.ext ?_
    show (y 1).val = ((Rect.unit (s := S32x256) ![0, 0] S1x256.size inb_S32x256_S1x256_0_0).emb y 1 : Nat)
    rw [Rect.emb_apply]
    simp

/-- Row 0 of the device `j` places after `c`, written into row `j` of `c`, gives that row of `accF m c`. -/
theorem landed_row (c d : Dev nD) (j : Fin 32) (hd : d = add c j) (fd : Buf (Elt F) ((c : Thread nD τ).loc cc0_scratch0)) (i : S32x256.Idx)
    (hi : i ∈ (rowM j).view.set) :
    (rowM j).view.write (Elt F) fd ((rowM 0).view.read (Elt F) (accF m d)) Finset.univ i
      = accF m c i := by
  have h0 : (i 0).val = j.val := (mem_row j i).mp hi
  obtain ⟨y, rfl⟩ := View.exists_emb_of_mem_set (rowM j).view hi
  have hz : ((rowM 0).view.emb y 0).val = 0 :=
    (mem_row 0 _).mp (View.emb_mem_set _ y)
  have e1 : (rowM 0).view.emb y 1 = (rowM j).view.emb y 1 :=
    Fin.ext ((row_emb_one 0 y).trans (row_emb_one j y).symm)
  rw [View.write_emb_of_mem _ _ (Finset.mem_univ y), View.read_apply, cast_cast, cast_eq, accF_apply, accF_apply,
    add_of_val_zero d _ hz, add_of_val_eq c _ j h0, ← hd, e1]

private theorem off00 : (![0, 0] : Fin 2 → Nat) = fun _ => 0 := funext fun a => by fin_cases a <;> rfl

theorem read_acc (f : (cc0_scratch0 : Ref sig .tc).ty.Contents (Elt F)) :
    aM.view.readAt (Elt F) (Rect.unit (s := S32x256) ![0, 0] S32x256.size inb_S32x256_S32x256_0_0).toLoadRect f = f :=
  Memref.readAt_unit_zero (Elt F) cc0_scratch0 off00 _ f
theorem read_x (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 off00 _ f
theorem write_out (f w : (cc0_stg1_0 : Ref sig .tc).ty.Contents (Elt F)) :
    (oM.access (Rect.unit (s := S1x256) ![0, 0] S1x256.size inb_S1x256_S1x256_0_0) : View sig .tc _ _ _).write (Elt F) f w Finset.univ = w :=
  Memref.write_access_unit_zero_univ (Elt F) cc0_stg1_0 off00 _ f w

end Cert.Kernel.Mean

end
-- ==== Proof.Bits.Steps.lean ====
import proofs.«900954_g7700000000000955_dist_mean_ax0_shard0_i_m512_n256_v7x_i32_bf16_1_alg».proof.Proof.Bits.Data
import proofs.«900954_g7700000000000955_dist_mean_ax0_shard0_i_m512_n256_v7x_i32_bf16_1_alg».proof.Proof.Bits.Tables
import proofs.«900954_g7700000000000955_dist_mean_ax0_shard0_i_m512_n256_v7x_i32_bf16_1_alg».proof.Proof.Bits.Mem

open Idealize.ShloMosaic.Tactic

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

theorem inv_at (ck : Dev nD × CK) (h : ck.2.ok) :
    (records m K : sProp 𝕄) ⊢ cellInv ER (meanRd m) (K ck) (kcell ck) := by
  have h1 : (bigSep allCells fun ck => cellInv ER (meanRd m) (K ck) (kcell ck) : sProp 𝕄)
      ⊢ cellInv ER (meanRd m) (K ck) (kcell ck) :=
    bigSep_elim (Finset.mem_filter.mpr ⟨Finset.mem_univ ck, h⟩)
  unfold records
  iintro ⟨H, -⟩
  iapply h1 $$ H

theorem reached_at (ck : Dev nD × CK) (h : ck.2.ok) :
    (records m K : sProp 𝕄) ⊢ reached ER (kcell ck) 0 := by
  have h1 : (bigSep allCells fun ck => reached ER (kcell ck) 0 : sProp 𝕄) ⊢ reached ER (kcell ck) 0 :=
    bigSep_elim (Finset.mem_filter.mpr ⟨Finset.mem_univ ck, h⟩)
  unfold records
  iintro ⟨-, H⟩
  iapply h1 $$ H

theorem payload_sig (c : Dev nD) (k : Fin 32) :
    (meanRd (F := F) m).payload (barCell (add c k)) 0 k
      = iprop((∃ f, (((c : Thread nD τ).loc cc0_scratch0) ↦[(rowM k).view.set]{fullShare} f : sProp 𝕄))
          ∗ reached ER (recvCell c k) 0) := by
  rw [payload_bar]; unfold barPay rowPts; rw [sub_add]

attribute [local sl_rounds] duties_bar duties_send duties_recv amount_bar amount_send amount_recv payload_sig
  payload_send payload_recv expect_bar expect_send expect_recv

/-- Signal `k` pays duty `k` of the barrier cell of the device `k` places on and hands over row `k`. -/
theorem step_signal (c n : Dev nD) (k : Fin 32) (hk : k ≠ 0) (hn : n = add c k)
    {α : Type} {Q : α → sProp 𝕄} {cont : PUnit → Prog (TpuEff nD τ sig (Elt F) Λ₀ .tc) α}
    (O : CellTallies nD τ sig Unit) (W : Waits sig Unit) :
    iprop(records m K ∗ owes (c : Thread nD τ) (O + tallyAt (barCell (add c k)) () 1) W
        ∗ dutyTok ER (barCell (add c k)) 0 k ∗ (∃ f, rowPts c k fullShare f))
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ
              (.op (.semSignal (Dev.tc n : Thread nD τ) barS (1#32 : BitVec 32).toNat) cont) Q) := by
  subst hn
  have hI : (records m K : sProp 𝕄) ⊢ cellInv ER (meanRd m) (K (add c k, .bar)) (barCell (add c k)) :=
    inv_at m K (add c k, .bar) trivial
  have hr : (records m K : sProp 𝕄) ⊢ reached ER (barCell (add c k)) 0 := reached_at m K (add c k, .bar) trivial
  have hrV : (records m K : sProp 𝕄) ⊢ reached ER (recvCell c k) 0 := reached_at m K (c, .recv k) hk
  unfold rowPts
  iintro ⟨#Hrec, HO, Htok, ⟨%f, Hrow⟩⟩ Hk
  ihave #HI := hI $$ Hrec
  ihave #Hr := hr $$ Hrec
  ihave #HrV := hrV $$ Hrec

  sl_exec
  iapply Hk
  iexact HO

attribute [local sl_rounds] payload_bar

/-- The barrier wait takes all of round 0: the 31 rows the copies will land in come back. -/
theorem step_barwait (c : Dev nD)
    {α : Type} {Q : α → sProp 𝕄} {cont : PUnit → Prog (TpuEff nD τ sig (Elt F) Λ₀ .tc) α} (W : Waits sig Unit) :
    iprop(records m K ∗ cred (tallyAt (barCell c) () 31) ∗ owes (c : Thread nD τ) (Osend c 0) W ∗ levAts L lv
        ∗ atPos ER (barCell c) 0 ∅ 0)
      ⊢ iprop(((owes (c : Thread nD τ) (Osend c 0) (insert (SemLoc.reg barS, ()) W) ∗ bigSep K31 (fun j => barPay (F := F) c j))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.semWait barS (31#32 : BitVec 32).toNat) cont) Q) := by
  have hI : (records m K : sProp 𝕄) ⊢ cellInv ER (meanRd m) (K (c, .bar)) (barCell c) := inv_at m K (c, .bar) trivial
  have hmw : (levAts L lv : sProp 𝕄) ⊢ MayWait (c : Thread nD τ) (.reg barS) () (Osend c 0) := mayWait_bar c
  iintro ⟨#Hrec, HcB, HO, Hlev, HatB⟩ Hk
  ihave #HI := hI $$ Hrec

  sl_exec
  iapply Hk
  iframe HO HatB_pay1

/-- Copy `k` pays the own send cell `k` and receive cell `32 - k` of the device `k` places on. -/
theorem step_send (c n : Dev nD) (k : Fin 32) (hk : k ≠ 0) (hn : n = add c k)
    {hsc : (rowM (neg k) : Memref sig (Dev.tc n : Thread nD τ).2.kind .vmem S1x256 .f32).view.ref.isScScratch = false}
    {hsrc : (rowM 0).view.WordExact} {hdst : (rowM (neg k)).view.WordExact}
    {hsem : DmaTarget.Typed .vmem (.dma (recvS (neg k))) (.remote (Dev.tc n : Thread nD τ) (rowM (neg k)) (.dma (sendS k)) hsc)}
    {α : Type} {Q : α → sProp 𝕄} {cont : PUnit → Prog (TpuEff nD τ sig (Elt F) Λ₀ .tc) α}
    (fd : Buf (Elt F) ((add c k : Thread nD τ).loc cc0_scratch0)) (O : CellTallies nD τ sig Unit) (W : Waits sig Unit) :
    iprop(records m K ∗ rowPts c 0 (piece k.val) (accF m c) ∗ rowPts (add c k) (neg k) fullShare fd
        ∗ owes (c : Thread nD τ) (O + tallyAt (recvCell (add c k) (neg k)) () N) W
        ∗ dutyTok ER (sendCell c k) 0 0 ∗ dutyTok ER (recvCell (add c k) (neg k)) 0 0)
      ⊢ iprop(((cred (tallyAt (sendCell c k) () N) ∗ owes (c : Thread nD τ) O W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (rowM 0) (.remote (Dev.tc n : Thread nD τ) (rowM (neg k)) (.dma (sendS k)) hsc) (.dma (recvS (neg k))) hsrc hdst hsem) cont) Q) := by
  subst hn
  have hk' : neg k ≠ 0 := neg_ne_zero k hk
  iintro ⟨#Hrec, Hsrc, Hdst, HO, HtS, HtV⟩
  ihave HIs := (inv_at m K (c, .send k) hk) $$ Hrec
  ihave HIr := (inv_at m K (add c k, .recv (neg k)) hk') $$ Hrec
  ihave HrS := (reached_at m K (c, .send k) hk) $$ Hrec
  ihave HrV := (reached_at m K (add c k, .recv (neg k)) hk') $$ Hrec
  unfold rowPts

  iapply (Rounds.wp_send_pointsTo 𝒱₀ ER (meanRd m) (c : Thread nD τ) none (c' := (add c k : Thread nD τ))
      (src := rowM 0) (dst := rowM (neg k)) (sS := .dma (sendS k)) (sem := .dma (recvS (neg k)))
      (q := piece k.val) (fs := accF m c) (fd := fd)
      (κ₁ := K (c, .send k)) (κ₂ := K (add c k, .recv (neg k))) (r₁ := 0) (r₂ := 0) (d₁ := 0) (d₂ := 0)
      (by rw [duties_send m c k hk]; exact Finset.mem_singleton_self _)
      (by rw [duties_recv m (add c k) (neg k) hk']; exact Finset.mem_singleton_self _)
      () () N (credit_row (neg k)) (amount_send m c k 0) (amount_recv m (add c k) (neg k) 0) O rfl (W := W)
      (by rw [payload_send m c k hk]; exact BI.Entails.refl _)
      (by

        rw [payload_recv m (add c k) (neg k) hk']
        exact row_congr (add c k) (neg k) fullShare _ _
          (fun i hi => landed_row m (add c k) c (neg k) (add_add_neg c k).symm fd i hi))) $$ [Hsrc Hdst HO HtS HtV]
  iframe HIs HIr Hsrc Hdst HO HtS HrS HtV HrV

theorem inv_x (c : Dev nD) (b : Bool) (k : Fin 32) (hk : k ≠ 0) :
    (records m K : sProp 𝕄) ⊢ cellInv ER (meanRd m) (K (c, xCK b k)) (xCell c b k) := by
  cases b <;> exact inv_at m K (c, _) hk

/-- A wait for a whole one-duty round returns the duty's payload: row `k` filled, or piece `k` of row 0. -/
theorem step_wait (c : Dev nD) (b : Bool) (k : Fin 32) (hk : k ≠ 0)
    {sp sp' : Space} {s s' : Shape} {e e' : EltTy} {src : Memref sig .tc sp' s' e'} {κ' : Kind} {dst : Memref sig κ' sp s e}
    {hsrc : src.view.WordExact} {hdst : dst.view.WordExact} (hdc : dst.view.dmaCredit = N)
    {α : Type} {Q : α → sProp 𝕄} {cont : PUnit → Prog (TpuEff nD τ sig (Elt F) Λ₀ .tc) α} (W : Waits sig Unit) :
    iprop(records m K ∗ cred (tallyAt (xCell c b k) () N) ∗ owes (c : Thread nD τ) 0 W ∗ atPos ER (xCell c b k) 0 ∅ 0)
      ⊢ iprop(((owes (c : Thread nD τ) 0 (insert (SemLoc.dma (xS b k), ()) W) ∗ atPos ER (xCell c b k) 1 ∅ 0 ∗ xPay m c b k)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (xS b k) src dst hsrc hdst) cont) Q) := by
  have hI := inv_x m K c b k hk
  rw [← hdc]
  cases b <;> dsimp only [xCell, xS, xCK, xPay] at hI ⊢ <;>
  · iintro ⟨#Hrec, Hc, HO, Hat⟩ Hk
    ihave #HI := hI $$ Hrec
    sl_exec
    first | unfold sendPay | unfold recvPay
    iapply Hk
    iframe HO Hat Hat_pay1

theorem close_x (c : Dev nD) (b : Bool) (k : Fin 32) (hk : k ≠ 0) :
    iprop(records m K ∗ atPos ER (xCell c b k) 1 ∅ 0) ⊢ (|={Set.univ}=> semVal (xCell c b k) 0 : sProp 𝕄) := by
  iintro ⟨#Hrec, Hat⟩
  ihave HI := (inv_x m K c b k hk) $$ Hrec
  iapply (Rounds.cell_close ER (meanRd m) (Set.mem_univ (K (c, xCK b k))) (fun h => h) (R := 0 + 1) (duties_later m (xCell c b k)))
  iframe HI Hat

end Cert.Kernel.Mean

end
-- ==== Proof.Bits.BodyInv.lean ====
import proofs.«900954_g7700000000000955_dist_mean_ax0_shard0_i_m512_n256_v7x_i32_bf16_1_alg».proof.Proof.Bits.Steps

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

abbrev upto (i : ℕ) : Finset (Fin 32) := Finset.univ.filter fun k : Fin 32 => 1 ≤ k.val ∧ k.val ≤ i

theorem upto_insert (k : Fin 32) (hk : k ≠ 0) : upto k.val = insert k (upto (k.val - 1)) := by
  have h0 : 0 < k.val := Nat.pos_of_ne_zero (fun h => hk (Fin.ext h))
  ext x
  simp only [Finset.mem_filter, Finset.mem_univ, true_and, Finset.mem_insert, Fin.ext_iff]
  omega
theorem upto_self (k : Fin 32) (hk : k ≠ 0) : k ∉ upto (k.val - 1) := by
  have h0 : 0 < k.val := Nat.pos_of_ne_zero (fun h => hk (Fin.ext h))
  simp only [Finset.mem_filter, Finset.mem_univ, true_and]
  omega
theorem K31_above : (K31 : Finset (Fin 32)) = above 0 := by
  ext x
  simp only [Finset.mem_erase, Finset.mem_filter, Finset.mem_univ, true_and, and_true, ne_eq, Fin.ext_iff, Fin.val_zero]
  omega
theorem upto_bot : upto 0 = ∅ := by
  ext x
  simp only [Finset.mem_filter, Finset.mem_univ, true_and, Finset.notMem_empty, iff_false]
  omega
theorem upto_top : upto 31 = K31 := by
  ext x
  have := x.isLt
  simp only [Finset.mem_erase, Finset.mem_filter, Finset.mem_univ, true_and, and_true, ne_eq, Fin.ext_iff, Fin.val_zero]
  omega

omit [FloatOps F] in
theorem bigSep_above_peel (k : Fin 32) (hk : k ≠ 0) (Φ : Fin 32 → sProp 𝕄) :
    bigSep (above (k.val - 1)) Φ = iprop(Φ k ∗ bigSep (above k.val) Φ) := by
  rw [above_pred k hk, bigSep_insert (not_mem_above k)]; rfl
omit [FloatOps F] in
theorem bigSep_upto_snoc (k : Fin 32) (hk : k ≠ 0) (Φ : Fin 32 → sProp 𝕄) :
    bigSep (upto k.val) Φ = iprop(Φ k ∗ bigSep (upto (k.val - 1)) Φ) := by
  rw [upto_insert k hk, bigSep_insert (upto_self k hk)]; rfl

/-- The four runs of like effects, each with an invariant indexed by how many are done: sums over the offsets above the count shrink, sums over those up to it grow. -/
def SigInv (c : Dev nD) (i : ℕ) : sProp 𝕄 :=
  iprop(records m K ∗ (∃ W, owes (c : Thread nD τ) (Osend c 0 + Osig c i) W)
    ∗ (bigSep (above i) fun k => dutyTok ER (barCell (add c k)) 0 k)
    ∗ bigSep (above i) fun k => iprop(∃ f, rowPts (F := F) c k fullShare f))

theorem sig_step (c : Dev nD) (i' : ℕ) {f : Dev nD → ℕ} {hf : ∀ c, f c < nD} {k : Fin 32} (hn : Chain f hf k)
    (hk : k.val = i' := by rfl) (h0 : i' ≠ 0 := by decide)
    {α : Type} {Q : α → sProp 𝕄} {cont : PUnit → Prog (TpuEff nD τ sig (Elt F) Λ₀ .tc) α} :
    SigInv m K c (i' - 1) ⊢ iprop((SigInv m K c i' -∗ wp frame (wpE (defs₀ (F := F)) 𝒱₀ (c : Thread nD τ) none) Set.univ (cont ⟨⟩) Q)
      -∗ wp frame (wpE (defs₀ (F := F)) 𝒱₀ (c : Thread nD τ) none) Set.univ (.op (.semSignal (Dev.tc ⟨f c, hf c⟩ : Thread nD τ) barS (1#32 : BitVec 32).toNat) cont) Q) := by
  subst hk
  have hk0 : k ≠ 0 := fun h => h0 (by rw [h]; rfl)
  unfold SigInv
  rw [bigSep_above_peel k hk0, bigSep_above_peel k hk0, Osig_peel c k hk0, ← add_assoc]
  iintro ⟨#Hr, ⟨%W, Ho⟩, ⟨Ht, Hts⟩, ⟨Hrow, Hrows⟩⟩ Hk
  iapply (step_signal m K c _ k hk0 (hn c) (Osend c 0 + Osig c k.val) W) $$ [Ho Ht Hrow]
  · iframe Hr Ho Ht Hrow
  iintro Ho
  iapply Hk
  iframe Hr Hts Hrows
  iexists W; iexact Ho

def CopyInv (c : Dev nD) (i : ℕ) : sProp 𝕄 :=
  iprop(records m K ∗ (∃ W, owes (c : Thread nD τ) (Osend c i) W)
    ∗ (bigSep (above i) fun k => rowPts c 0 (piece k.val) (accF m c))
    ∗ (bigSep (above i) fun k => iprop(∃ fd, rowPts (F := F) (add c k) (neg k) fullShare fd))
    ∗ (bigSep (above i) fun k => dutyTok ER (sendCell c k) 0 0)
    ∗ (bigSep (above i) fun k => dutyTok ER (recvCell (add c k) (neg k)) 0 0)
    ∗ bigSep (upto i) fun k => cred (tallyAt (sendCell c k) () N))

theorem copy_step (c : Dev nD) (i' : ℕ) {f : Dev nD → ℕ} {hf : ∀ c, f c < nD} {k : Fin 32} (hn : Chain f hf k)
    (hk : k.val = i' := by rfl) (h0 : i' ≠ 0 := by decide)
    {hsc : (rowM (neg k) : Memref sig (Dev.tc ⟨f c, hf c⟩ : Thread nD τ).2.kind .vmem S1x256 .f32).view.ref.isScScratch = false}
    {hsrc : (rowM 0).view.WordExact} {hdst : (rowM (neg k)).view.WordExact}
    {hsem : DmaTarget.Typed .vmem (.dma (recvS (neg k))) (.remote (Dev.tc ⟨f c, hf c⟩ : Thread nD τ) (rowM (neg k)) (.dma (sendS k)) hsc)}
    {α : Type} {Q : α → sProp 𝕄} {cont : PUnit → Prog (TpuEff nD τ sig (Elt F) Λ₀ .tc) α} :
    CopyInv m K c (i' - 1) ⊢ iprop((CopyInv m K c i' -∗ wp frame (wpE (defs₀ (F := F)) 𝒱₀ (c : Thread nD τ) none) Set.univ (cont ⟨⟩) Q)
      -∗ wp frame (wpE (defs₀ (F := F)) 𝒱₀ (c : Thread nD τ) none) Set.univ
          (.op (.enqueueDma (rowM 0) (.remote (Dev.tc ⟨f c, hf c⟩ : Thread nD τ) (rowM (neg k)) (.dma (sendS k)) hsc) (.dma (recvS (neg k))) hsrc hdst hsem) cont) Q) := by
  subst hk
  have hk0 : k ≠ 0 := fun h => h0 (by rw [h]; rfl)
  unfold CopyInv
  rw [bigSep_above_peel k hk0, bigSep_above_peel k hk0, bigSep_above_peel k hk0, bigSep_above_peel k hk0, bigSep_upto_snoc k hk0,
    Osend_peel c k hk0]
  iintro ⟨#Hr, ⟨%W, Ho⟩, ⟨Hp, Hps⟩, ⟨⟨%fd, Hd⟩, Hds⟩, ⟨Hts, Htss⟩, ⟨Htr, Htrs⟩, Hcs⟩ Hk
  iapply (step_send m K c _ k hk0 (hn c) fd (Osend c k.val) W) $$ [Hp Hd Ho Hts Htr]
  · iframe Hr Hp Hd Ho Hts Htr
  iintro ⟨Hc, Ho⟩
  iapply Hk
  iframe Hr Hps Hds Htss Htrs Hc Hcs
  iexists W; iexact Ho

def WInv (c : Dev nD) (b : Bool) (i : ℕ) : sProp 𝕄 :=
  iprop(records m K ∗ (∃ W, owes (c : Thread nD τ) 0 W)
    ∗ (bigSep (above i) fun k => cred (tallyAt (xCell c b k) () N))
    ∗ (bigSep (above i) fun k => atPos ER (xCell c b k) 0 ∅ 0)
    ∗ (bigSep (upto i) fun k => atPos ER (xCell c b k) 1 ∅ 0)
    ∗ bigSep (upto i) fun k => xPay m c b k)

theorem w_step (c : Dev nD) (b : Bool) {i : ℕ}
    {sp sp' : Space} {s s' : Shape} {e e' : EltTy} {src : Memref sig .tc sp' s' e'} {κ' : Kind} {dst : Memref sig κ' sp s e}
    {hsrc : src.view.WordExact} {hdst : dst.view.WordExact}
    (hn : i + 1 < 32 := by decide) (hdc : dst.view.dmaCredit = N := by decide)
    {α : Type} {Q : α → sProp 𝕄} {cont : PUnit → Prog (TpuEff nD τ sig (Elt F) Λ₀ .tc) α} :
    WInv m K c b i ⊢ iprop((WInv m K c b (i + 1) -∗ wp frame (wpE (defs₀ (F := F)) 𝒱₀ (c : Thread nD τ) none) Set.univ (cont ⟨⟩) Q)
      -∗ wp frame (wpE (defs₀ (F := F)) 𝒱₀ (c : Thread nD τ) none) Set.univ (.op (.waitDma2 (xS b ⟨i + 1, hn⟩) src dst hsrc hdst) cont) Q) := by
  have hk0 : (⟨i + 1, hn⟩ : Fin 32) ≠ 0 := fun h => Nat.succ_ne_zero i (congrArg Fin.val h)
  show WInv m K c b ((⟨i + 1, hn⟩ : Fin 32).val - 1) ⊢ iprop((WInv m K c b (⟨i + 1, hn⟩ : Fin 32).val -∗ _) -∗ _)
  generalize (⟨i + 1, hn⟩ : Fin 32) = k at hk0 ⊢
  unfold WInv
  rw [bigSep_above_peel k hk0, bigSep_above_peel k hk0, bigSep_upto_snoc k hk0, bigSep_upto_snoc k hk0]
  iintro ⟨#Hr, ⟨%W, Ho⟩, ⟨Hc, Hcs⟩, ⟨Ha, Has⟩, Hbs, Hrows⟩ Hk
  iapply (step_wait m K c b k hk0 hdc W) $$ [Hc Ho Ha]
  · iframe Hr Hc Ho Ha
  iintro ⟨Ho, Hb, Hrow⟩
  iapply Hk
  iframe Hr Hcs Has Hb Hbs Hrow Hrows
  iexists (insert (SemLoc.dma (xS b k), ()) W); iexact Ho

omit [FloatOps F] in
/-- Summands that each update under a persistent assertion update together: the assertion is copied to each, and updates commute with the sum. -/
theorem bigSep_update_under (R : sProp 𝕄) [BI.Persistent R] (s : Finset (Fin 32)) (Φ Ψ : Fin 32 → sProp 𝕄)
    (h : ∀ k ∈ s, iprop(R ∗ Φ k) ⊢ (|={Set.univ}=> Ψ k : sProp 𝕄)) :
    iprop(R ∗ bigSep s Φ) ⊢ (|={Set.univ}=> bigSep s Ψ : sProp 𝕄) :=
  (bigSep_with_persistent h).trans (bigSep_fupd _ _)

theorem mem_upto_ne_zero {i : ℕ} {k : Fin 32} (h : k ∈ upto i) : k ≠ 0 := fun h0 => by
  have := (Finset.mem_filter.mp h).2.1
  rw [h0, Fin.val_zero] at this; omega

theorem close_xs (c : Dev nD) (b : Bool) :
    iprop(records m K ∗ bigSep (upto 31) fun k => atPos ER (xCell c b k) 1 ∅ 0) ⊢ (|={Set.univ}=> bigSep K31 fun k => semVal (xCell c b k) 0 : sProp 𝕄) := by
  rw [← upto_top]
  exact bigSep_update_under (records m K) (upto 31) _ _ fun k hk => close_x m K c b k (mem_upto_ne_zero hk)

def negEmb : Fin 32 ↪ Fin 32 := ⟨neg, fun a b h => by have := congrArg neg h; rwa [neg_neg, neg_neg] at this⟩

theorem pos_iff_ne (k : Fin 32) : 0 < k.val ↔ k ≠ 0 :=
  ⟨fun h h0 => by rw [h0, Fin.val_zero] at h; exact Nat.lt_irrefl 0 h, fun h => Nat.pos_of_ne_zero fun h0 => h (Fin.ext h0)⟩

theorem above_map_neg : (above 0).map negEmb = above 0 := by
  ext x
  simp only [Finset.mem_map, Finset.mem_filter, Finset.mem_univ, true_and]
  constructor
  · rintro ⟨a, ha, rfl⟩
    exact (pos_iff_ne _).mpr (neg_ne_zero a ((pos_iff_ne a).mp ha))
  · intro hx
    exact ⟨neg x, (pos_iff_ne _).mpr (neg_ne_zero x ((pos_iff_ne x).mp hx)), neg_neg x⟩

omit [FloatOps F] in
theorem barPay_row (c : Dev nD) (k : Fin 32) :
    barPay (F := F) c (neg k) ⊢ iprop(∃ fd, rowPts (F := F) (add c k) (neg k) fullShare fd) := by
  unfold barPay
  rw [sub_eq_add_neg, neg_neg]
  iintro ⟨H, -⟩; iexact H

omit [FloatOps F] in
/-- Negation permutes the offsets, so the rows the signals handed over are the copies' destinations. -/
theorem barPay_rows (c : Dev nD) :
    bigSep K31 (fun j => barPay (F := F) c j) ⊢ bigSep (above 0) fun k => iprop(∃ fd, rowPts (F := F) (add c k) (neg k) fullShare fd) := by
  have e : bigSep K31 (fun j => barPay (F := F) c j) = bigSep (above 0) (fun k => barPay (F := F) c (neg k)) := by
    rw [K31_above]
    conv_lhs => rw [← above_map_neg, bigSep_map]
    rfl
  rw [e]
  exact bigSep_mono fun k _ => barPay_row c k

abbrev r00 : Rect S32x256 := Rect.unit (s := S32x256) ![0, 0] S1x256.size inb_S32x256_S1x256_0_0

omit [FloatOps F] in
theorem eq_of_biEntails {P Q : sProp 𝕄} (h : P ⊣⊢ Q) : P = Q := equiv_iff.mp ⟨h.mp, h.mpr⟩

omit [FloatOps F] in
theorem rowPts_access (c : Dev nD) (q : PosShare TreeShare) (f : Buf (Elt F) ((c : Thread nD τ).loc cc0_scratch0)) :
    rowPts c 0 q f
      = (((aM.access r00 : View sig .tc _ _ _).loc (c : Thread nD τ))
          ↦[(aM.access r00 : View sig .tc _ _ _).set]{q} f : sProp 𝕄) := rfl

theorem row_stored (c : Dev nD) (f : Buf (Elt F) ((c : Thread nD τ).loc cc0_scratch0)) :
    (((aM.access r00 : View sig .tc _ _ _).loc (c : Thread nD τ))
        ↦[(aM.access r00 : View sig .tc _ _ _).set]{fullShare}
          ((aM.access r00 : View sig .tc _ _ _).write (Elt F) f (k0_pay1 (xstg m c)) Finset.univ) : sProp 𝕄)
      ⊢ (rowPts c 0 fullShare (accF m c) : sProp 𝕄) := by
  rw [← rowPts_access]
  exact row_congr c 0 fullShare _ _ fun i hi => stored_row0 m c f i hi

/-- Row 0's kept half with the other rows whole is the whole array at the kept share with the rows' left halves. -/
theorem rows_lend (c : Dev nD) (f : Buf (Elt F) ((c : Thread nD τ).loc cc0_scratch0)) :
    iprop(rowPts c 0 keepQ f ∗ bigSep (upto 31) fun j => rowPts c j fullShare f)
      = (iprop((((c : Thread nD τ).loc cc0_scratch0) ↦{keepQ} f) ∗ bigSep (upto 31) fun j => rowPts c j fullShare.left f) : sProp 𝕄) := by
  have e1 : (bigSep (upto 31) fun j => rowPts (F := F) c j fullShare f)
      = iprop((bigSep (upto 31) fun j => rowPts (F := F) c j fullShare.left f) ∗ bigSep (upto 31) fun j => rowPts (F := F) c j keepQ f) := by
    refine Eq.trans ?_ (bigSep_sep (upto 31) _ _)
    exact bigSep_congr fun j _ => eq_of_biEntails (row_halves c j fullShare f)
  have e2 : ((((c : Thread nD τ).loc cc0_scratch0) ↦{keepQ} f) : sProp 𝕄)
      = iprop(rowPts c 0 keepQ f ∗ bigSep (upto 31) fun j => rowPts (F := F) c j keepQ f) := by
    rw [eq_of_biEntails (rows_split c keepQ f), bigSep_univ_split (0 : Fin 32), upto_top]
    rfl
  rw [e1, e2]
  have h1 (A B C : sProp 𝕄) : iprop(A ∗ B ∗ C) ⊢ iprop((A ∗ C) ∗ B) := by
    iintro ⟨A, B, C⟩
    isplitr [B]
    · iframe A C
    · iexact B
  have h2 (A B C : sProp 𝕄) : iprop((A ∗ C) ∗ B) ⊢ iprop(A ∗ B ∗ C) := by
    iintro ⟨⟨A, C⟩, B⟩
    iframe A B C
  exact equiv_iff.mp ⟨h1 _ _ _, h2 _ _ _⟩

omit [FloatOps F] in
theorem bigSep_univ_K31 (Φ : Fin 32 → sProp 𝕄) : bigSep Finset.univ Φ = iprop(Φ 0 ∗ bigSep K31 Φ) := bigSep_univ_split (0 : Fin 32)
omit [FloatOps F] in
theorem bigSep_univ_above (Φ : Fin 32 → sProp 𝕄) : bigSep Finset.univ Φ = iprop(Φ 0 ∗ bigSep (above 0) Φ) := by
  rw [bigSep_univ_K31, K31_above]
theorem upto_top_above : upto 31 = above 0 := upto_top.trans K31_above

omit [FloatOps F] in
theorem rows_some (c : Dev nD) (f : Buf (Elt F) ((c : Thread nD τ).loc cc0_scratch0)) :
    (bigSep (above 0) fun k => rowPts (F := F) c k fullShare f) ⊢ bigSep (above 0) fun k => iprop(∃ f, rowPts (F := F) c k fullShare f) :=
  bigSep_mono fun k _ => (show rowPts (F := F) c k fullShare f ⊢ iprop(∃ f, rowPts (F := F) c k fullShare f) from by iintro H; iexists f; iexact H)

theorem scratch_rows (c : Dev nD) :
    scratchAny (F := F) c ⊢ iprop((∃ f, rowPts (F := F) c 0 fullShare f) ∗ bigSep (above 0) fun k => iprop(∃ f, rowPts (F := F) c k fullShare f)) := by
  unfold scratchAny
  iintro ⟨%f, H⟩
  ihave H := (rows_split c fullShare f).mp $$ H
  ihave H := (Entails.of_eq (bigSep_univ_above fun j => rowPts (F := F) c j fullShare f)) $$ H
  icases H with ⟨H0, Hs⟩
  isplitl [H0]; · iexists f; iexact H0
  iapply (rows_some c f)
  iexact Hs

theorem rows_scratch (c : Dev nD) (f : Buf (Elt F) ((c : Thread nD τ).loc cc0_scratch0)) :
    iprop(rowPts c 0 fullShare f ∗ bigSep (above 0) fun j => rowPts c j fullShare f) ⊢ scratchAny (F := F) c := by
  unfold scratchAny
  iintro H
  iexists f
  iapply (rows_split c fullShare f).mpr
  iapply (Entails.of_eq (bigSep_univ_above fun j => rowPts (F := F) c j fullShare f).symm)
  iexact H

abbrev o00 : Rect S1x256 := Rect.unit (s := S1x256) ![0, 0] S1x256.size inb_S1x256_S1x256_0_0

end Cert.Kernel.Mean

end
-- ==== Proof.Bits.Body.lean ====
import proofs.«900954_g7700000000000955_dist_mean_ax0_shard0_i_m512_n256_v7x_i32_bf16_1_alg».proof.Proof.Bits.BodyInv

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

/-- One device's body: 31 signals, its column sums into row 0, the barrier wait, 31 copies, 31 receive waits, the result, 31 send waits; then all cells close. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  rw [cc0_body_eq_skeleton]; unfold cc0_body_skel
  rw [k0_part55_eq_skeleton]; unfold k0_part55_skel
  simp only [Prog.lift, Prog.bind_op, Prog.bind_ret, Prog.pure_eq_ret]
  unfold bodyPre ghost positions payToks spare creds
  rw [K31_above]
  iintro ⟨⟨⟨⟨#Hrec, ⟨HaB, HaS, HaR⟩, ⟨HtB, HtR, HtS⟩, ⟨Hz0s, Hz0r⟩⟩, ⟨HcB, HcR⟩, #Hlev, Hscr⟩, Ho, ⟨%d0, %g0, %hg0, Hx⟩, ⟨%d1, %g1, %hg1, Hout⟩⟩, Hk⟩
  have hx : g0 = xstg m c := by
    rw [hg0]; unfold Dat.before
    rw [if_pos (show (cfg0.win (0 : Fin 2)).fetch t₀ = true from rfl)]; rfl
  subst hx
  unfold Dat.owesAt Pipeline.owesWithin
  icases Ho with ⟨%W, %hW, HO⟩
  rw [show (dats m 0 c).owed t₀.castSucc = Osend c 0 + Osig c 0 from rfl]
  ihave Hrows := (scratch_rows c) $$ Hscr
  icases Hrows with ⟨Hrow0, Hrows⟩

  ihave H : SigInv m K c 0 $$ [HO HtB Hrows]
  · unfold SigInv
    iframe Hrec HtB Hrows
    iexists W; iexact HO
  rw [wp_bind]
  simp only [wp_deviceId, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel,
    semSignalWord, semWaitWord, Prog.lift, Prog.bind_op, Prog.bind_ret, Prog.pure_eq_ret]
  iapply (sig_step m K c 1 dev_eq_1) $$ H; iintro H
  iapply (sig_step m K c 2 dev_eq_2) $$ H; iintro H
  iapply (sig_step m K c 3 dev_eq_3) $$ H; iintro H
  iapply (sig_step m K c 4 dev_eq_4) $$ H; iintro H
  iapply (sig_step m K c 5 dev_eq_5) $$ H; iintro H
  iapply (sig_step m K c 6 dev_eq_6) $$ H; iintro H
  iapply (sig_step m K c 7 dev_eq_7) $$ H; iintro H
  iapply (sig_step m K c 8 dev_eq_8) $$ H; iintro H
  iapply (sig_step m K c 9 dev_eq_9) $$ H; iintro H
  iapply (sig_step m K c 10 dev_eq_10) $$ H; iintro H
  iapply (sig_step m K c 11 dev_eq_11) $$ H; iintro H
  iapply (sig_step m K c 12 dev_eq_12) $$ H; iintro H
  iapply (sig_step m K c 13 dev_eq_13) $$ H; iintro H
  iapply (sig_step m K c 14 dev_eq_14) $$ H; iintro H
  iapply (sig_step m K c 15 dev_eq_15) $$ H; iintro H
  iapply (sig_step m K c 16 dev_eq_16) $$ H; iintro H
  iapply (sig_step m K c 17 dev_eq_17) $$ H; iintro H
  iapply (sig_step m K c 18 dev_eq_18) $$ H; iintro H
  iapply (sig_step m K c 19 dev_eq_19) $$ H; iintro H
  iapply (sig_step m K c 20 dev_eq_20) $$ H; iintro H
  iapply (sig_step m K c 21 dev_eq_21) $$ H; iintro H
  iapply (sig_step m K c 22 dev_eq_22) $$ H; iintro H
  iapply (sig_step m K c 23 dev_eq_23) $$ H; iintro H
  iapply (sig_step m K c 24 dev_eq_24) $$ H; iintro H
  iapply (sig_step m K c 25 dev_eq_25) $$ H; iintro H
  iapply (sig_step m K c 26 dev_eq_26) $$ H; iintro H
  iapply (sig_step m K c 27 dev_eq_27) $$ H; iintro H
  iapply (sig_step m K c 28 dev_eq_28) $$ H; iintro H
  iapply (sig_step m K c 29 dev_eq_29) $$ H; iintro H

  iapply (sig_step m K c 30 dev_eq_30) $$ H; iintro H
  iapply (sig_step m K c 31 dev_eq_31) $$ H; iintro H
  unfold SigInv
  simp only [above_31, bigSep_empty, Osig_done, _root_.add_zero]
  icases H with ⟨-, ⟨%W, Ho⟩, -, -⟩
  icases Hrow0 with ⟨%f0, Hrow⟩
  iapply (wp_load 𝒱₀ (c : Thread nD τ) none Set.univ (m := xM) (Finset.subset_univ _)) $$ Hx; iintro Hx
  rw [read_x]
  ihave Hrow := (Entails.of_eq (rowPts_access c fullShare f0)) $$ Hrow
  iapply (wp_load_rect 𝒱₀ (c : Thread nD τ) none Set.univ (m := aM) (r := r00) (Finset.Subset.refl _)) $$ Hrow; iintro Hrow
  iapply (wp_store 𝒱₀ (c : Thread nD τ) none Set.univ (m := aM) (r := r00) (Mk := Finset.univ)
    (show (aM.access r00 : View sig .tc _ _ _).setOn Finset.univ ⊆ (aM.access r00 : View sig .tc _ _ _).set from Finset.Subset.refl _)) $$ Hrow; iintro Hrow
  ihave Hrow := (row_stored m c f0) $$ Hrow
  ihave Hrow := (row_halves c 0 fullShare (accF m c)).mp $$ Hrow
  icases Hrow with ⟨Hl, Hkeep⟩
  ihave Hl := (left_chain c 0 (accF m c) 31 (Nat.le_refl 31)).mp $$ Hl
  icases Hl with ⟨Hrem, Hps⟩
  ihave Hps := (Entails.of_eq (congrArg (fun s => bigSep s fun k : Fin 32 => rowPts (F := F) c 0 (piece k.val) (accF m c)) upto_top_above)) $$ Hps
  iapply (step_barwait m K c W) $$ [HcB Ho HaB]
  · iframe Hrec HcB Ho Hlev HaB
  iintro ⟨Ho, Hbp⟩
  ihave Hds := (barPay_rows c) $$ Hbp

  ihave H : CopyInv m K c 0 $$ [Ho Hps Hds HtS HtR]
  · unfold CopyInv
    simp only [upto_bot, bigSep_empty]
    iframe Hrec Hps Hds HtS HtR
    isplitl; · iexists _; iexact Ho
    iempintro
  simp only [k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel,
    semSignalWord, Prog.lift, Prog.bind_op, Prog.bind_ret, Prog.pure_eq_ret]
  iapply (copy_step m K c 1 dev_eq_32) $$ H; iintro H
  iapply (copy_step m K c 2 dev_eq_33) $$ H; iintro H
  iapply (copy_step m K c 3 dev_eq_34) $$ H; iintro H
  iapply (copy_step m K c 4 dev_eq_35) $$ H; iintro H
  iapply (copy_step m K c 5 dev_eq_36) $$ H; iintro H
  iapply (copy_step m K c 6 dev_eq_37) $$ H; iintro H
  iapply (copy_step m K c 7 dev_eq_38) $$ H; iintro H
  iapply (copy_step m K c 8 dev_eq_39) $$ H; iintro H
  iapply (copy_step m K c 9 dev_eq_40) $$ H; iintro H
  iapply (copy_step m K c 10 dev_eq_41) $$ H; iintro H
  iapply (copy_step m K c 11 dev_eq_42) $$ H; iintro H
  iapply (copy_step m K c 12 dev_eq_43) $$ H; iintro H
  iapply (copy_step m K c 13 dev_eq_44) $$ H; iintro H
  iapply (copy_step m K c 14 dev_eq_45) $$ H; iintro H
  iapply (copy_step m K c 15 dev_eq_46) $$ H; iintro H
  iapply (copy_step m K c 16 dev_eq_47) $$ H; iintro H
  iapply (copy_step m K c 17 dev_eq_48) $$ H; iintro H
  iapply (copy_step m K c 18 dev_eq_49) $$ H; iintro H
  iapply (copy_step m K c 19 dev_eq_50) $$ H; iintro H
  iapply (copy_step m K c 20 dev_eq_51) $$ H; iintro H
  iapply (copy_step m K c 21 dev_eq_52) $$ H; iintro H
  iapply (copy_step m K c 22 dev_eq_53) $$ H; iintro H
  iapply (copy_step m K c 23 dev_eq_54) $$ H; iintro H
  iapply (copy_step m K c 24 dev_eq_55) $$ H; iintro H
  iapply (copy_step m K c 25 dev_eq_56) $$ H; iintro H
  iapply (copy_step m K c 26 dev_eq_57) $$ H; iintro H
  iapply (copy_step m K c 27 dev_eq_58) $$ H; iintro H
  iapply (copy_step m K c 28 dev_eq_59) $$ H; iintro H
  iapply (copy_step m K c 29 dev_eq_60) $$ H; iintro H
  iapply (copy_step m K c 30 dev_eq_61) $$ H; iintro H
  iapply (copy_step m K c 31 dev_eq_62) $$ H; iintro H
  unfold CopyInv
  simp only [above_31, bigSep_empty, Osend_done]
  icases H with ⟨-, Ho, -, -, -, -, Hcs⟩

  ihave H : WInv m K c true 0 $$ [Ho HcR HaR]
  · unfold WInv
    simp only [upto_bot, bigSep_empty]
    iframe Hrec Ho HcR HaR
    isplitl <;> iempintro
  simp only [k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel,
    semSignalWord, Prog.lift, Prog.bind_op, Prog.bind_ret, Prog.pure_eq_ret]
  iterate 31 (iapply (w_step m K c true) $$ H; iintro H)
  unfold WInv xPay recvPay
  simp only [Nat.reduceAdd, above_31, bigSep_empty]
  icases H with ⟨-, Ho, -, -, HbR, Hrows⟩
  ihave Hw := (Entails.of_eq (rows_lend c (accF m c))) $$ [Hkeep Hrows]
  · iframe Hkeep Hrows
  icases Hw with ⟨Hw, Hls⟩
  iapply (wp_load 𝒱₀ (c : Thread nD τ) none Set.univ (m := aM) (Finset.subset_univ _)) $$ Hw; iintro Hw
  rw [read_acc]
  ihave Hw := (Entails.of_eq (rows_lend c (accF m c)).symm) $$ [Hw Hls]
  · iframe Hw Hls
  icases Hw with ⟨Hkeep, Hrows⟩

  ihave Hcs := (Entails.of_eq (congrArg (fun s => bigSep s fun k : Fin 32 => (cred (tallyAt (sendCell c k) () N) : sProp 𝕄)) upto_top_above)) $$ Hcs
  ihave H : WInv m K c false 0 $$ [Ho Hcs HaS]
  · unfold WInv
    simp only [upto_bot, bigSep_empty]
    iframe Hrec Ho Hcs HaS
    isplitl <;> iempintro
  simp only [k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel,
    semSignalWord, Prog.lift, Prog.bind_op, Prog.bind_ret, Prog.pure_eq_ret]
  iapply (wp_load 𝒱₀ (c : Thread nD τ) none Set.univ (m := oM) (Finset.subset_univ _)) $$ Hout; iintro Hout
  iapply (wp_store 𝒱₀ (c : Thread nD τ) none Set.univ (m := oM) (r := o00) (Mk := Finset.univ) (Finset.subset_univ _)) $$ Hout; iintro Hout
  rw [write_out]
  iterate 29 (iapply (w_step m K c false) $$ H; iintro H)
  rw [wp_ret]; imodintro; try dsimp only
  iterate 2 (iapply (w_step m K c false) $$ H; iintro H)
  unfold WInv xPay sendPay
  simp only [Nat.reduceAdd, above_31, bigSep_empty]
  icases H with ⟨-, ⟨%W', Ho⟩, -, -, HbS, Hpcs⟩

  imod (close_xs m K c false) $$ [HbS] with HzS
  · iframe Hrec HbS
  imod (close_xs m K c true) $$ [HbR] with HzR
  · iframe Hrec HbR

  ihave Hl := (left_chain c 0 (accF m c) 31 (Nat.le_refl 31)).mpr $$ [Hrem Hpcs]
  · iframe Hrem Hpcs
  ihave Hrow0 := (row_halves c 0 fullShare (accF m c)).mpr $$ [Hl Hkeep]
  · iframe Hl Hkeep
  ihave Hrows := (Entails.of_eq (congrArg (fun s => bigSep s fun j : Fin 32 => rowPts (F := F) c j fullShare (accF m c)) upto_top_above)) $$ Hrows
  ihave Hscr := (rows_scratch c (accF m c)) $$ [Hrow0 Hrows]
  · iframe Hrow0 Hrows
  rw [wp_ret]; imodintro
  iapply Hk
  unfold bodyPost Φ₁ Dat.owesAt Pipeline.owesWithin
  rw [show (dats m 0 c).owed t₀.succ = 0 from rfl]
  isplitl [Hscr HzS HzR Hz0s Hz0r]
  · isplitl [Hscr]; · iexact Hscr
    isplitl [HzS Hz0s]
    · iapply (Entails.of_eq (bigSep_univ_K31 fun k => (semVal (sendCell c k) 0 : sProp 𝕄)).symm)
      iframe Hz0s HzS
    · iapply (Entails.of_eq (bigSep_univ_K31 fun j => (semVal (recvCell c j) 0 : sProp 𝕄)).symm)
      iframe Hz0r HzR
  isplitl [Ho]
  · iexists W'
    isplitr; · ipureintro; exact fun _ _ => Or.inl trivial
    iexact Ho
  isplitl [Hx]
  · iexists _; isplitr; · ipureintro; rfl
    iexact Hx
  iexists _; isplitr; · ipureintro; rfl
  iexact Hout

end Cert.Kernel.Mean

end
-- ==== Proof.Bits.Fund.lean ====
import proofs.«900954_g7700000000000955_dist_mean_ax0_shard0_i_m512_n256_v7x_i32_bf16_1_alg».proof.Proof.Bits.Data
import proofs.«900954_g7700000000000955_dist_mean_ax0_shard0_i_m512_n256_v7x_i32_bf16_1_alg».proof.Proof.Bits.Tables

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev osem : Fin 64 → SemLoc sig := fun i =>
  if h : i.val < 32 then .dma (sendS ⟨i.val, h⟩) else .dma (recvS ⟨i.val - 32, by omega⟩)

theorem osem_val (i : Fin 64) : ∃ q : DmaSem sig, osem i = .dma q ∧ q.val = i.val + 2 := by
  unfold osem
  split
  · exact ⟨_, rfl, by simp only [sendS_val]; omega⟩
  · exact ⟨_, rfl, by simp only [recvS_val]; omega⟩

theorem ownSemFacts : Pipeline.OwnSemFacts cfg0.spec osem where
  isScoped := by
    have h1 : ∀ k : Fin 32, (SemLoc.dma (sendS k) : SemLoc sig).isScoped .tc = true := by decide
    have h2 : ∀ k : Fin 32, (SemLoc.dma (recvS k) : SemLoc sig).isScoped .tc = true := by decide
    intro i; unfold osem; split
    · exact h1 _
    · exact h2 _
  inj := by
    intro i j h
    obtain ⟨q, hq, hv⟩ := osem_val i
    obtain ⟨q', hq', hv'⟩ := osem_val j
    rw [hq, hq'] at h
    have hqq : q = q' := SemLoc.dma.inj h
    subst hqq; exact Fin.ext (by omega)
  disj := by
    have hw : ∀ w s, ¬(2 ≤ ((cfg0.spec w).sem s).val ∧ ((cfg0.spec w).sem s).val < 66) := by decide
    intro i w s h
    obtain ⟨q, hq, hv⟩ := osem_val i
    rw [hq] at h
    have hqq := SemLoc.dma.inj h
    subst hqq
    exact hw w s ⟨by omega, by have := i.isLt; omega⟩

omit [FloatOps F] in
theorem bigSep_filter_snd {α β : Type} [Fintype α] [Fintype β] [DecidableEq α] [DecidableEq β] (p : β → Prop) [DecidablePred p]
    (Φ : α × β → sProp 𝕄) :
    bigSep (Finset.univ.filter fun ab : α × β => p ab.2) Φ
      = bigSep Finset.univ fun a => bigSep (Finset.univ.filter p) fun b => Φ (a, b) := by
  rw [bigSep_filter, bigSep_univ_prod]
  exact bigSep_congr fun a _ => by rw [bigSep_filter]

omit [FloatOps F] in
theorem bigSep_reindex {α β : Type} [Fintype α] [Fintype β] [DecidableEq α] [DecidableEq β] (p : β → Prop) [DecidablePred p]
    (e : α × β ≃ α × β) (he : ∀ x, p (e x).2 ↔ p x.2) (Φ : α × β → sProp 𝕄) :
    (bigSep Finset.univ fun a => bigSep (Finset.univ.filter p) fun b => Φ (a, b))
      = bigSep Finset.univ fun a => bigSep (Finset.univ.filter p) fun b => Φ (e (a, b)) := by
  rw [← bigSep_filter_snd p Φ, ← bigSep_filter_snd p (fun x => Φ (e x)), bigSep_filter, bigSep_filter, bigSep_univ_equiv e]
  exact bigSep_congr fun x _ => by simp only [he x]

omit [FloatOps F] in
theorem bigSep_erase' {I : Type} [DecidableEq I] {s : Finset I} {i : I} (hi : i ∈ s) (Φ : I → sProp 𝕄) :
    bigSep s Φ = iprop(Φ i ∗ bigSep (s.erase i) Φ) := BI.bigSep_erase hi

theorem K31_eq : K31 = Finset.univ.filter fun k : Fin 32 => k ≠ 0 := (Finset.filter_ne' _ _).symm

theorem okCK_eq : (Finset.univ.filter fun x : CK => x.ok)
    = insert CK.bar (K31.map ⟨CK.send, fun _ _ h => CK.send.inj h⟩ ∪ K31.map ⟨CK.recv, fun _ _ h => CK.recv.inj h⟩) := by
  ext x
  simp only [Finset.mem_filter, Finset.mem_univ, true_and, Finset.mem_insert, Finset.mem_union, Finset.mem_map,
    Finset.mem_erase, Function.Embedding.coeFn_mk, and_true]
  cases x with
  | bar => exact ⟨fun _ => Or.inl rfl, fun _ => trivial⟩
  | send k =>
    constructor
    · intro h; exact Or.inr (Or.inl ⟨k, h, rfl⟩)
    · rintro (h | ⟨k', hk', h⟩ | ⟨j, _, h⟩)
      · cases h
      · cases h; exact hk'
      · cases h
  | recv j =>
    constructor
    · intro h; exact Or.inr (Or.inr ⟨j, h, rfl⟩)
    · rintro (h | ⟨k', _, h⟩ | ⟨j', hj', h⟩)
      · cases h
      · cases h
      · cases h; exact hj'

omit [FloatOps F] in
theorem bigSep_okCK (Φ : CK → sProp 𝕄) :
    bigSep (Finset.univ.filter fun x : CK => x.ok) Φ
      = iprop(Φ .bar ∗ (bigSep K31 fun k => Φ (.send k)) ∗ bigSep K31 fun j => Φ (.recv j)) := by
  rw [okCK_eq, bigSep_insert (by simp), bigSep_union (by
    rw [Finset.disjoint_left]; intro x hx hx'
    obtain ⟨k, -, rfl⟩ := Finset.mem_map.mp hx
    obtain ⟨j, -, hj⟩ := Finset.mem_map.mp hx'
    cases hj), bigSep_map, bigSep_map]
  rfl

theorem csem_injective : Function.Injective (csem : CK → SemLoc sig) := by
  intro x y h
  have hv := congrArg (fun s : SemLoc sig => match s with | .reg _ => 0 | .dma q => q.val + 1) h
  cases x <;> cases y <;> simp only [sendS_val, recvS_val] at hv <;>
    first | rfl | omega | (congr 1; exact Fin.ext (by omega))

theorem kcell_injective : Function.Injective (kcell : Dev nD × CK → GSem nD τ sig) := by
  rintro ⟨c, x⟩ ⟨c', x'⟩ h
  have h1 : c = c' := congrArg (fun g : GSem nD τ sig => g.1.1) h
  subst h1
  have h2 : x = x' := csem_injective (congrArg Prod.snd h)
  subst h2; rfl

def ringCells : Finset (GSem nD τ sig) := allCells.map ⟨kcell, kcell_injective⟩

abbrev tokOf (t : Dev nD × Fin 3 × Fin 32) : GSem nD τ sig × ℕ × Fin 32 := match t.2.1 with
  | 0 => (barCell t.1, 0, t.2.2) | 1 => (sendCell t.1 t.2.2, 0, 0) | 2 => (recvCell t.1 t.2.2, 0, 0)

theorem tokOf_injective : Function.Injective (tokOf : Dev nD × Fin 3 × Fin 32 → GSem nD τ sig × ℕ × Fin 32) := by
  rintro ⟨c, i, k⟩ ⟨c', i', k'⟩ h
  have h1 : c = c' := by
    have := congrArg (fun x : GSem nD τ sig × ℕ × Fin 32 => x.1.1.1) h
    fin_cases i <;> fin_cases i' <;> exact this
  subst h1
  have hv := congrArg (fun x : GSem nD τ sig × ℕ × Fin 32 => ((match x.1.2 with | .reg _ => 0 | .dma q => q.val + 1), x.2.2.val)) h
  have : i = i' ∧ k = k' := by
    fin_cases i <;> fin_cases i' <;> simp only [tokOf, sendS_val, recvS_val, Prod.mk.injEq] at hv <;>
      first | exact ⟨rfl, Fin.ext (by omega)⟩ | omega
  obtain ⟨rfl, rfl⟩ := this; rfl

def ringToks : Finset (GSem nD τ sig × ℕ × Fin 32) :=
  (Finset.univ.filter fun t : Dev nD × Fin 3 × Fin 32 => t.2.2 ≠ 0).map ⟨tokOf, tokOf_injective⟩

def toks (c : Dev nD) : sProp 𝕄 :=
  iprop((bigSep K31 fun j => dutyTok ER (barCell c) 0 j)
    ∗ (bigSep K31 fun k => dutyTok ER (sendCell c k) 0 0)
    ∗ (bigSep K31 fun j => dutyTok ER (recvCell c j) 0 0))

def G (c : Dev nD) : sProp 𝕄 :=
  iprop((bigSep (Finset.univ.filter fun x : CK => x.ok) fun x => roundState ER (meanRd m) (kcell (c, x)) 0)
    ∗ (bigSep (Finset.univ.filter fun x : CK => x.ok) fun x => iprop(atPos ER (kcell (c, x)) 0 ∅ 0 ∗ reached ER (kcell (c, x)) 0))
    ∗ toks c)

def G' (c : Dev nD) : sProp 𝕄 := iprop(∃ K, ghost m K c)

def u₀ : UU :=
  (initOf (Pipeline.cells cfgs cellOf_inj) (Pipeline.launchToks cfgs cellOf_inj), initOf ringCells ringToks)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ
      = bigSep Finset.univ fun c : Dev nD => bigSep (Finset.univ.filter fun x : CK => x.ok) fun x => Φ (kcell (c, x)) := by
    unfold ringCells; rw [bigSep_map]
    exact bigSep_filter_snd (fun x : CK => x.ok) (fun ck => Φ (kcell ck))
  have hT : bigSep ringToks (fun x => (dutyTok ER x.1 x.2.1 x.2.2 : sProp 𝕄)) = bigSep Finset.univ fun c : Dev nD => toks c := by
    unfold ringToks; rw [bigSep_map]
    refine (bigSep_filter_snd (fun b : Fin 3 × Fin 32 => b.2 ≠ 0) _).trans (bigSep_congr fun c _ => ?_)
    refine (bigSep_filter_snd (fun k : Fin 32 => k ≠ 0) _).trans ?_
    rw [bigSep_fin3, ← K31_eq]; rfl
  iintro HX
  imod (Rounds.fund ER (meanRd m) ringCells ringToks) $$ HX with ⟨Hst, Hr, Hat, Htok⟩
  imodintro
  ihave Hst' := (Entails.of_eq (hX fun g => roundState ER (meanRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_u₀ :
    (ownU u₀ : sProp 𝕄)
      ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

def osemIx : Fin 32 ⊕ Fin 32 ≃ Fin 64 where
  toFun | .inl k => ⟨k.val, by omega⟩ | .inr j => ⟨32 + j.val, by omega⟩
  invFun i := if h : i.val < 32 then .inl ⟨i.val, h⟩ else .inr ⟨i.val - 32, by omega⟩
  left_inv x := by
    rcases x with k | j
    · dsimp only; rw [dif_pos k.isLt]
    · dsimp only; rw [dif_neg (show ¬(32 + j.val < 32) by omega)]
      congr 1; exact Fin.ext (by simp)
  right_inv i := by
    by_cases h : i.val < 32
    · dsimp only; rw [dif_pos h]
    · dsimp only; rw [dif_neg h]
      exact Fin.ext (by dsimp only; omega)

theorem osem_inl (k : Fin 32) : osem (osemIx (.inl k)) = .dma (sendS k) := by
  show (if h : k.val < 32 then SemLoc.dma (sendS ⟨k.val, h⟩) else _) = _
  rw [dif_pos k.isLt]
theorem osem_inr (j : Fin 32) : osem (osemIx (.inr j)) = .dma (recvS j) := by
  show (if h : 32 + j.val < 32 then _ else SemLoc.dma (recvS ⟨32 + j.val - 32, _⟩)) = _
  rw [dif_neg (show ¬(32 + j.val < 32) by omega)]
  congr 2; exact Fin.ext (by simp)

theorem ownSems0_eq (c : Dev nD) :
    (Pipeline.ownSems0 (Ix := Unit) (Name := ℕ) (U := UU) (Lvl := ℕ) (Val := Elt F) (τ := τ) osem c : sProp 𝕄)
      = iprop((bigSep Finset.univ fun k : Fin 32 => semVal (sendCell c k) 0) ∗ bigSep Finset.univ fun j : Fin 32 => semVal (recvCell c j) 0) := by
  unfold Pipeline.ownSems0
  rw [bigSep_univ_equiv osemIx, bigSep_univ_sum]
  simp only [osem_inl, osem_inr]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep (Finset.univ.filter fun x : CK => x.ok) fun x => semVal (kcell (c, x)) 0) ∗ spare c) : sProp 𝕄) := by
  rw [ownSems0_eq, unscopedSems0_eq, bigSep_okCK,
    bigSep_erase' (Finset.mem_univ (0 : Fin 32)) (fun k : Fin 32 => (semVal (sendCell c k) 0 : sProp 𝕄)),
    bigSep_erase' (Finset.mem_univ (0 : Fin 32)) (fun j : Fin 32 => (semVal (recvCell c j) 0 : sProp 𝕄))]
  unfold spare
  iintro ⟨⟨⟨HS0, HS⟩, ⟨HR0, HR⟩⟩, HB⟩
  isplitl [HB HS HR]
  · isplitl [HB]; · iexact HB
    isplitl [HS] <;> iassumption
  · isplitl [HS0] <;> iassumption

def core (c : Dev nD) : sProp 𝕄 :=
  iprop((bigSep (Finset.univ.filter fun x : CK => x.ok) fun x => iprop(∃ κ : ℕ, cellInv ER (meanRd m) κ (kcell (c, x))))
    ∗ (bigSep (Finset.univ.filter fun x : CK => x.ok) fun x => reached ER (kcell (c, x)) 0)
    ∗ positions c ∗ toks c ∗ spare c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> core m c := by
  unfold G core
  iintro ⟨Hos, Hus, Hst, Hat, Htok⟩
  ihave Hv := (sems0_eq (F := F) c) $$ [Hos Hus]
  · isplitl [Hos] <;> iassumption
  icases Hv with ⟨Hv, Hsp⟩
  ihave Hat' := (Entails.of_eq (bigSep_sep' (Finset.univ.filter fun x : CK => x.ok) (fun x => (atPos ER (kcell (c, x)) 0 ∅ 0 : sProp 𝕄)) (fun x => reached ER (kcell (c, x)) 0))) $$ Hat
  icases Hat' with ⟨Hat, Hr⟩
  ihave Hpos := (Entails.of_eq (bigSep_okCK (fun x => (atPos ER (kcell (c, x)) 0 ∅ 0 : sProp 𝕄)))) $$ Hat
  imod (show iprop((bigSep (Finset.univ.filter fun x : CK => x.ok) fun x => semVal (kcell (c, x)) 0)
        ∗ bigSep (Finset.univ.filter fun x : CK => x.ok) fun x => roundState ER (meanRd m) (kcell (c, x)) 0)
      ⊢ (|={Set.univ}=> bigSep (Finset.univ.filter fun x : CK => x.ok) fun x => iprop(∃ κ : ℕ, cellInv ER (meanRd m) κ (kcell (c, x))) : sProp 𝕄) from by
        rw [← bigSep_sep']
        exact (bigSep_mono fun x _ => (Rounds.body_intro ER (meanRd m) (kcell (c, x))).trans inv_alloc).trans (bigSep_fupd _ _)) $$ [Hv Hst] with Hinv
  · isplitl [Hv] <;> iassumption
  imodintro
  isplitl [Hinv]; · iexact Hinv
  isplitl [Hr]; · iexact Hr
  isplitl [Hpos]; · unfold positions; iexact Hpos
  iframe Htok Hsp

def linear (c : Dev nD) : sProp 𝕄 := iprop(positions c ∗ payToks c ∗ spare c)

theorem ghost_intro (K : Dev nD × CK → ℕ) (c : Dev nD) : iprop(records m K ∗ linear c) ⊢ G' m c := by
  unfold linear G' ghost
  iintro ⟨HR, HL⟩
  iexists K
  isplitl [HR] <;> iassumption

def addPair : Dev nD × Fin 32 ≃ Dev nD × Fin 32 where
  toFun x := (add x.1 x.2, x.2)
  invFun x := (sub x.1 x.2, x.2)
  left_inv x := by rcases x with ⟨c, k⟩; exact Prod.ext (Mean.sub_add c k) rfl
  right_inv x := by rcases x with ⟨c, k⟩; exact Prod.ext (Mean.add_sub c k) rfl

def negPair : Dev nD × Fin 32 ≃ Dev nD × Fin 32 where
  toFun x := (add x.1 x.2, neg x.2)
  invFun x := (add x.1 x.2, neg x.2)
  left_inv x := by rcases x with ⟨c, k⟩; exact Prod.ext (Mean.add_add_neg c k) (Mean.neg_neg k)
  right_inv x := by rcases x with ⟨c, k⟩; exact Prod.ext (Mean.add_add_neg c k) (Mean.neg_neg k)

theorem neg_ne_zero_iff (k : Fin 32) : neg k ≠ 0 ↔ k ≠ 0 := by revert k; decide

omit [FloatOps F] in
/-- Re-indexing along the ring hands each duty's token to the device that pays it. -/
theorem toks_around : (bigSep Finset.univ fun c : Dev nD => (toks c : sProp 𝕄)) ⊢ bigSep Finset.univ fun c : Dev nD => payToks c := by
  have h1 : (bigSep Finset.univ fun c : Dev nD => bigSep (Finset.univ.filter fun k : Fin 32 => k ≠ 0) fun j => (dutyTok ER (barCell c) 0 j : sProp 𝕄))
      = bigSep Finset.univ fun c : Dev nD => bigSep (Finset.univ.filter fun k : Fin 32 => k ≠ 0) fun k => dutyTok ER (barCell (add c k)) 0 k :=
    bigSep_reindex (fun k : Fin 32 => k ≠ 0) addPair (fun _ => Iff.rfl) (fun x : Dev nD × Fin 32 => (dutyTok ER (barCell x.1) 0 x.2 : sProp 𝕄))
  have h2 : (bigSep Finset.univ fun c : Dev nD => bigSep (Finset.univ.filter fun k : Fin 32 => k ≠ 0) fun j => (dutyTok ER (recvCell c j) 0 0 : sProp 𝕄))
      = bigSep Finset.univ fun c : Dev nD => bigSep (Finset.univ.filter fun k : Fin 32 => k ≠ 0) fun k => dutyTok ER (recvCell (add c k) (neg k)) 0 0 :=
    bigSep_reindex (fun k : Fin 32 => k ≠ 0) negPair (fun x => neg_ne_zero_iff x.2) (fun x : Dev nD × Fin 32 => (dutyTok ER (recvCell x.1 x.2) 0 0 : sProp 𝕄))
  unfold toks payToks
  rw [K31_eq, bigSep_sep', bigSep_sep', bigSep_sep', bigSep_sep', h1, h2]
  iintro ⟨H1, H2, H3⟩
  iframe H1 H3 H2

theorem regroup : (bigSep Finset.univ fun c : Dev nD => (core m c : sProp 𝕄)) ⊢ bigSep Finset.univ (G' m) := by
  have hL : (bigSep Finset.univ fun c : Dev nD => (linear c : sProp 𝕄))
      = iprop((bigSep Finset.univ fun c : Dev nD => positions c) ∗ (bigSep Finset.univ fun c : Dev nD => payToks c) ∗ bigSep Finset.univ fun c : Dev nD => spare c) := by
    unfold linear; rw [bigSep_sep', bigSep_sep']
  unfold core
  rw [bigSep_sep', bigSep_sep', bigSep_sep', bigSep_sep']
  iintro ⟨HI, HR, Hpos, Htok, Hsp⟩
  ihave HI' := (Entails.of_eq (bigSep_filter_snd (fun x : CK => x.ok) (fun ck : Dev nD × CK => iprop(∃ κ : ℕ, cellInv ER (meanRd m) κ (kcell ck)))).symm) $$ HI
  ihave HR' := (Entails.of_eq (bigSep_filter_snd (fun x : CK => x.ok) (fun ck : Dev nD × CK => (reached ER (kcell ck) 0 : sProp 𝕄))).symm) $$ HR
  icases HR' with #HR'
  ihave HK := (BI.bigSep_exists_pi allCells (fun (ck : Dev nD × CK) (κ : ℕ) => (cellInv ER (meanRd m) κ (kcell ck) : sProp 𝕄))) $$ HI'
  icases HK with ⟨%K, #HI⟩
  ihave Htk := (toks_around (F := F)) $$ Htok
  iapply (bigSep_with_persistent (R := records m K) fun c _ => ghost_intro m K c)
  isplitr
  · unfold records; isplitl; · iexact HI
    iexact HR'
  · iapply (Entails.of_eq hL.symm)
    iframe Hpos Htk Hsp

/-- One update for the whole mesh allocates every cell's invariant and deals the tokens. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

end Cert.Kernel.Mean

end
-- ==== Proof.Bits.Launch.lean ====
import proofs.«900954_g7700000000000955_dist_mean_ax0_shard0_i_m512_n256_v7x_i32_bf16_1_alg».proof.Proof.Bits.Body
import proofs.«900954_g7700000000000955_dist_mean_ax0_shard0_i_m512_n256_v7x_i32_bf16_1_alg».proof.Proof.Bits.Fund

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem xstg_eq (c : Dev nD) : xstg m c = m ((c : Thread nD τ).loc main_arg0) := by
  unfold xstg
  exact Memref.read_access_unit_zero (Elt F) main_arg0 (funext fun a => Nat.zero_mul _) _ _

theorem launch_bigSep_W (Φ : Fin cfg0.W → sProp 𝕄) : bigSep Finset.univ Φ = iprop(Φ (0 : Fin 2) ∗ Φ (1 : Fin 2)) := bigSep_W0 Φ

theorem launch_owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

theorem body_obligation (c : Dev nD) : BodyObligation (dats (F := F) m 0 c) (defs₀ (F := F)) 𝒱₀ () Set.univ := fun t => by
  rw [fin_N t]
  rw [launch_bigSep_W, launch_bigSep_W]
  simp only [launch_owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2⟩
      iframe H1 H2 Hscr
    isplitl [Ho]; · iexact Ho
    isplitl [Hx] <;> iassumption
  · iintro H; iexact H

theorem ring_add_eq_iff (c d : Dev nD) (k : Fin 32) : add d k = c ↔ d = sub c k :=
  ⟨fun h => by rw [← h, sub_add], fun h => by rw [h, add_sub]⟩

theorem launch_recvS_inj : Function.Injective (recvS : Fin 32 → DmaSem sig) := fun j j' h => by
  have := congrArg Fin.val h
  rw [recvS_val, recvS_val] at this
  exact Fin.ext (by omega)

theorem launch_bar_eq_iff {a b : Dev nD} : Iff (barCell a = barCell b) (a = b) :=
  ⟨fun h => Fin.ext (congrArg (fun g : GSem nD τ sig => g.1.1.val) h), fun h => h ▸ rfl⟩
theorem launch_recv_eq_iff {a b : Dev nD} {j j' : Fin 32} : Iff (recvCell a j = recvCell b j') (a = b ∧ j = j') :=
  ⟨fun h => ⟨Fin.ext (congrArg (fun g : GSem nD τ sig => g.1.1.val) h),
      launch_recvS_inj (SemLoc.dma.inj (congrArg Prod.snd h))⟩, fun ⟨h1, h2⟩ => by rw [h1, h2]⟩
theorem launch_recv_ne_bar (a b : Dev nD) (j : Fin 32) : recvCell a j ≠ barCell b := fun h => by
  have := congrArg Prod.snd h; cases this
theorem launch_bar_ne_recv (a b : Dev nD) (j : Fin 32) : barCell b ≠ recvCell a j := fun h => launch_recv_ne_bar a b j h.symm

theorem launch_card_above0 : (above 0).card = 31 := by decide

/-- Summed over the mesh, the devices owe cell `c` exactly what its round 0 expects: each offset is reached from exactly one device. -/
theorem sum_owed_bar (c : Dev nD) : ∑ d : Dev nD, O₀ d (barCell c) () = 31 := by
  have h (d : Dev nD) : O₀ d (barCell c) () = ∑ k ∈ above 0, if add d k = c then 1 else 0 := by
    unfold O₀ Osend Osig
    rw [Pi.add_apply, Finsupp.add_apply, Finset.sum_apply, Finsupp.finsetSum_apply, Finset.sum_apply, Finsupp.finsetSum_apply,
      Finset.sum_eq_zero (s := above 0) (f := fun k => tallyAt (recvCell (add d k) (neg k)) () N (barCell c) ())
        (fun k _ => by rw [tallyAt_ne_cell (launch_bar_ne_recv _ _ _)]; rfl), Nat.zero_add]
    refine Finset.sum_congr rfl fun k _ => ?_
    rw [tallyAt_apply]
    by_cases hk : add d k = c
    · rw [if_pos hk, if_pos ⟨by rw [hk], rfl⟩]
    · rw [if_neg hk, if_neg fun h' => hk (launch_bar_eq_iff.mp h'.1).symm]
  rw [Finset.sum_congr rfl fun d _ => h d, Finset.sum_comm,
    Finset.sum_congr rfl fun k _ => show (∑ d : Dev nD, if add d k = c then 1 else 0) = 1 from by
      rw [Finset.sum_congr rfl fun d _ => if_congr (ring_add_eq_iff c d k) rfl rfl, Finset.sum_ite_eq' Finset.univ (sub c k) fun _ => 1,
        if_pos (Finset.mem_univ _)],
    Finset.sum_const, launch_card_above0, smul_eq_mul]

theorem sum_owed_recv (c : Dev nD) (j : Fin 32) (hj : j ≠ 0) : ∑ d : Dev nD, O₀ d (recvCell c j) () = N := by
  have h (d : Dev nD) : O₀ d (recvCell c j) () = ∑ k ∈ above 0, if add d k = c ∧ neg k = j then N else 0 := by
    unfold O₀ Osend Osig
    rw [Pi.add_apply, Finsupp.add_apply, Finset.sum_apply, Finsupp.finsetSum_apply, Finset.sum_apply, Finsupp.finsetSum_apply,
      Finset.sum_eq_zero (s := above 0) (f := fun k => tallyAt (barCell (add d k)) () 1 (recvCell c j) ())
        (fun k _ => by rw [tallyAt_ne_cell (launch_recv_ne_bar _ _ _)]; rfl), Nat.add_zero]
    refine Finset.sum_congr rfl fun k _ => ?_
    rw [tallyAt_apply]
    by_cases hk : add d k = c ∧ neg k = j
    · rw [if_pos hk, if_pos ⟨by rw [hk.1, hk.2], rfl⟩]
    · rw [if_neg hk, if_neg fun h' => hk ((launch_recv_eq_iff.mp h'.1).imp Eq.symm Eq.symm)]
  have hin (k : Fin 32) : (∑ d : Dev nD, if add d k = c ∧ neg k = j then N else 0) = if k = neg j then N else 0 := by
    by_cases hk : k = neg j
    · subst hk
      rw [if_pos rfl, Finset.sum_congr rfl fun d _ => if_congr (show (add d (neg j) = c ∧ neg (neg j) = j) ↔ d = sub c (neg j) from
          ⟨fun h => (ring_add_eq_iff c d _).mp h.1, fun h => ⟨(ring_add_eq_iff c d _).mpr h, neg_neg j⟩⟩) rfl rfl,
        Finset.sum_ite_eq' Finset.univ (sub c (neg j)) fun _ => N, if_pos (Finset.mem_univ _)]
    · rw [if_neg hk]
      exact Finset.sum_eq_zero fun d _ => if_neg fun h => hk (by rw [← h.2, neg_neg])
  have hmem : neg j ∈ above 0 :=
    Finset.mem_filter.mpr ⟨Finset.mem_univ (neg j), Nat.pos_of_ne_zero fun h => neg_ne_zero j hj (Fin.ext h)⟩
  rw [Finset.sum_congr rfl fun d _ => h d, Finset.sum_comm, Finset.sum_congr rfl fun k _ => hin k,
    Finset.sum_ite_eq' (above 0) (neg j) fun _ => N, if_pos hmem]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, sum_owed_bar]

theorem launch_recv (c : Dev nD) (j : Fin 32) (hj : j ≠ 0) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, sum_owed_recv c j hj]

def launch_recvEmb : Fin 32 ↪ SemLoc sig := ⟨fun j => .dma (recvS j), fun j j' h => launch_recvS_inj (SemLoc.dma.inj h)⟩

theorem launch_creds (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := K31.map launch_recvEmb) fun sm h => ?_).trans ?_
  · obtain ⟨j, _, rfl⟩ := Finset.mem_map.mp h
    exact Finset.mem_erase.mpr ⟨fun h => (by cases h), Finset.mem_univ _⟩
  · rw [bigSep_map]
    exact bigSep_mono fun j hj => Entails.of_eq (congrArg cred (launch_recv c j (Finset.mem_erase.mp hj).1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · iframe HG Hc Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchAny
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratchAny
  iintro ⟨⟨%f, Hr⟩, HzS, HzV⟩
  isplitr; · iempintro
  isplitl [HzS HzV]
  · isplitl [HzS] <;> iassumption
  iexists f; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

theorem launch_share_eq (c : Dev nD) (w : Fin cfg0.W) : (dats m 0 c).share w = fullShare := by unfold Dat.share; split <;> rfl

theorem launch_L_of_ne (g : GSem nD τ sig) (h : g.1.2 ≠ .tc) : L g = ∅ := if_neg h

/-- Every weakly fair run of the mesh terminates with `x` unchanged and each device's result at `outF`. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := launch_share_eq m)
    (hdistinct := winFacts0.arr_inj)
    (O₀ := O₀) (howed₀ := fun _ => rfl) (howedN := fun _ => rfl)
    (L := L) (lv := lv) (hL := launch_L_of_ne) (hwaits := waits m)
    (G := G m) (G' := G' m) (u₀ := u₀)
    (hu₀ := fund_u₀ m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m c (0 : Fin 2) = m (win0_0.arr.view.loc (c : Thread nD τ)) :=
  (dats (F := F) m 0 c).arrAt_in (0 : Fin 2) rfl _

theorem finalA_out (c : Dev nD) : finalA m c (1 : Fin 2) = outF m c := by
  have h := (dats (F := F) m 0 c).arrAt_succ (1 : Fin 2) t₀
  rw [flush0_1 t₀, if_pos rfl] at h
  refine (show finalA m c (1 : Fin 2) = (dats m 0 c).arrAt (1 : Fin 2) (t₀.val + 1) from rfl).trans (h.trans ?_)
  exact Memref.write_access_unit_zero_univ (Elt F) main_v1 (funext fun a => Nat.zero_mul _) _ _ _

end Cert.Kernel.Mean

end
-- ==== Proof.Value.lean ====
import proofs.«900954_g7700000000000955_dist_mean_ax0_shard0_i_m512_n256_v7x_i32_bf16_1_alg».proof.Proof.Spec
import proofs.«900954_g7700000000000955_dist_mean_ax0_shard0_i_m512_n256_v7x_i32_bf16_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Logic.Equiv.Fin.Basic

noncomputable section

namespace Cert.KernelIdeal.Mean

open Cert.KernelIdeal Cert.KernelIdeal.Gen
open Idealize.ShloMosaic Idealize.ShloMosaic.ValueIdx

theorem ofBits_16384 : Ideal.ofBits .f32 0x46800000#32 = ((16384 : ℝ) : EReal) := by
  simp [Ideal.ofBits, Ideal.ieee, -EReal.coe_mul]; norm_num

theorem ofBits_inv_16384 : Ideal.ofBits .f32 0x38800000#32 = ((1 / 16384 : ℝ) : EReal) := by
  simp [Ideal.ofBits, Ideal.ieee, -EReal.coe_mul]; norm_num

theorem colsum512 (x : FVec Ideal S512x256 .f32) (h : S512x256.Reduces [0] S256) (hφ : FKind.Formats .f32)
    (hacc : (0x00000000#32 : BitVec 32) = 0x00000000#32) (j : Fin 256) :
    multiReduction (F := Ideal) .add [0] S256 x 0x00000000#32 h hφ hacc (ix1 j) = ∑ p : Fin 512, x (ix2 p j) := by
  refine (Ideal.multiReduction_add_single x 0x00000000#32 h hφ hacc (ix1 j)).trans ?_
  show ∑ p : Fin 512, x (h.lift (ix1 j) p) = _
  refine Finset.sum_congr rfl fun p _ => congrArg x (funext fun a => Fin.ext ?_)
  match a with
  | ⟨0, _⟩ => rfl
  | ⟨1, _⟩ => rfl

theorem colsum32 (x : FVec Ideal S32x256 .f32) (h : S32x256.Reduces [0] S256) (hφ : FKind.Formats .f32)
    (hacc : (0x00000000#32 : BitVec 32) = 0x00000000#32) (j : Fin 256) :
    multiReduction (F := Ideal) .add [0] S256 x 0x00000000#32 h hφ hacc (ix1 j) = ∑ r : Fin 32, x (ix2 r j) := by
  refine (Ideal.multiReduction_add_single x 0x00000000#32 h hφ hacc (ix1 j)).trans ?_
  show ∑ r : Fin 32, x (h.lift (ix1 j) r) = _
  refine Finset.sum_congr rfl fun r _ => congrArg x (funext fun a => Fin.ext ?_)
  match a with
  | ⟨0, _⟩ => rfl
  | ⟨1, _⟩ => rfl

theorem pay1_apply (x : Vec Ideal S512x256 .f32) (j : Fin 256) :
    k0_pay1 (F := Ideal) x (ix2 (0 : Fin 1) j) = ∑ p : Fin 512, x (ix2 p j) := by
  unfold k0_pay1
  dsimp only
  rw [shapeCast_self, shapeCast_self]
  refine (shapeCast_a_1a_apply _ _ (0 : Fin 1) j).trans ?_
  exact colsum512 x _ _ _ j

theorem pay2_apply (a : Vec Ideal S32x256 .f32) (j : Fin 256) :
    k0_pay2 (F := Ideal) a (ix1 j) = ∑ r : Fin 32, a (ix2 r j) := by
  unfold k0_pay2
  exact colsum32 a _ _ _ j

theorem pay3_apply (v : FVec Ideal S256 .f32) (j : Fin 256) :
    k0_pay3 (F := Ideal) v (ix2 (0 : Fin 1) j) = v (ix1 j) * ((1 / 16384 : ℝ) : EReal) := by
  unfold k0_pay3
  rw [mulf_apply, broadcast_apply, shapeCast_a_1a_apply]
  show v (ix1 j) * Ideal.ofBits .f32 0x38800000#32 = _
  rw [ofBits_inv_16384]

theorem ref_apply (X : (⟨Cert.ReferenceIdeal.S16384x256, .f32⟩ : BufTy).Contents (Elt Ideal)) (j : Fin 256) :
    Cert.ReferenceIdeal.Read.val_main_v3 (F := Ideal) X (ix2 (0 : Fin 1) j)
      = (∑ k : Fin 16384, X (ix2 k j)) * ((1 / 16384 : ℝ) : EReal) := by
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply]
  show Ideal.div (Ideal.ofBits .f32 0x00000000#32 + ∑ k : Fin 16384, X (_)) (Ideal.ofBits .f32 0x46800000#32) = _
  rw [Ideal.ofBits_zero_f32, zero_add, ofBits_16384, Ideal.div_coe (by norm_num : (16384 : ℝ) ≠ 0)]
  have hs : ∀ k : Fin 16384,
      Cert.ReferenceIdeal.Read.idx_main_v0 (Cert.ReferenceIdeal.Read.idx_main_v1 (ix2 (0 : Fin 1) j)) k = ix2 k j := by
    intro k
    funext a
    match a with
    | ⟨0, _⟩ => rfl
    | ⟨1, _⟩ => rfl
  simp only [hs]

def ringEquiv (c : Dev nD) : Fin 32 ≃ Fin 32 where
  toFun := add c
  invFun := fun d => ⟨(d.val + (32 - c.val)) % 32, Nat.mod_lt _ (by decide)⟩
  left_inv := by revert c; decide
  right_inv := by revert c; decide

theorem sum_rows_blocks {M : Type*} [AddCommMonoid M] (g : Fin 16384 → M) :
    ∑ k : Fin 16384, g k
      = ∑ d : Fin 32, ∑ p : Fin 512, g ⟨d.val * 512 + p.val, by have := d.isLt; have := p.isLt; omega⟩ := by
  show ∑ k : Fin (32 * 512), g k = _
  rw [← Equiv.sum_comp finProdFinEquiv, Fintype.sum_prod_type]
  refine Finset.sum_congr rfl fun d _ => Finset.sum_congr rfl fun p _ => congrArg g (Fin.ext ?_)
  show p.val + 512 * d.val = d.val * 512 + p.val
  omega

/-- Summing the 32 blocks in ring order from any device regroups the sum over all 16384 rows: a bijection of a finite index set in a commutative monoid. -/
theorem sum_ring_blocks {M : Type*} [AddCommMonoid M] (g : Fin 16384 → M) (c : Dev nD) :
    ∑ r : Fin 32, ∑ p : Fin 512,
        g ⟨(add c r).val * 512 + p.val, by have : (add c r).val < 32 := (add c r).isLt; have := p.isLt; omega⟩
      = ∑ k : Fin 16384, g k := by
  rw [sum_rows_blocks g]
  exact Equiv.sum_comp (ringEquiv c)
    (fun d : Fin 32 => ∑ p : Fin 512, g ⟨d.val * 512 + p.val, by have := d.isLt; have := p.isLt; omega⟩)

theorem colsum_acc (X : (⟨Cert.ReferenceIdeal.S16384x256, .f32⟩ : BufTy).Contents (Elt Ideal)) (c : Dev nD)
    (j : Fin 256) :
    ∑ r : Fin 32, accOf (F := Ideal) (fun d => Layout.block ⟨2, ![512, 256]⟩ ⟨2, ![16384, 256]⟩ 0 32 d X) c (ix2 r j)
      = ∑ k : Fin 16384, X (ix2 k j) := by
  rw [← sum_ring_blocks (fun k => X (ix2 k j)) c]
  refine Finset.sum_congr rfl fun r _ => ?_
  show k0_pay1 (F := Ideal) (Layout.block ⟨2, ![512, 256]⟩ ⟨2, ![16384, 256]⟩ 0 32 (add c r) X) (ix2 (0 : Fin 1) j) = _
  rw [pay1_apply]
  refine Finset.sum_congr rfl fun p _ => ?_
  show X _ = X _
  refine congrArg X (funext fun a => Fin.ext ?_)
  match a with
  | ⟨0, _⟩ => rfl
  | ⟨1, _⟩ => rfl

/-- The kernel's result from the 32 blocks of `X` is the reference's on `X`, for any contents. -/
theorem outOf_eq_ref (X : (⟨Cert.ReferenceIdeal.S16384x256, .f32⟩ : BufTy).Contents (Elt Ideal)) (c : Dev nD) :
    outOf (F := Ideal) (fun d => Layout.block ⟨2, ![512, 256]⟩ ⟨2, ![16384, 256]⟩ 0 32 d X) c
      = Cert.ReferenceIdeal.Read.val_main_v3 (F := Ideal) X := by
  funext i
  obtain ⟨u, j, rfl⟩ : ∃ (u : Fin 1) (j : Fin 256), i = ix2 u j := ⟨i 0, i 1, eq_ix2 i⟩
  obtain rfl : u = 0 := Subsingleton.elim _ _
  rw [ref_apply]
  unfold outOf
  rw [pay3_apply, pay2_apply, colsum_acc]

end Cert.KernelIdeal.Mean

end
-- ==== Proof.Claims.lean ====
import proofs.«900954_g7700000000000955_dist_mean_ax0_shard0_i_m512_n256_v7x_i32_bf16_1_alg».proof.Defs
import proofs.«900954_g7700000000000955_dist_mean_ax0_shard0_i_m512_n256_v7x_i32_bf16_1_alg».proof.Proof.Gen.Kernel
import proofs.«900954_g7700000000000955_dist_mean_ax0_shard0_i_m512_n256_v7x_i32_bf16_1_alg».proof.Proof.Gen.KernelIdeal
import proofs.«900954_g7700000000000955_dist_mean_ax0_shard0_i_m512_n256_v7x_i32_bf16_1_alg».proof.Proof.Gen.ReferenceIdeal
import proofs.«900954_g7700000000000955_dist_mean_ax0_shard0_i_m512_n256_v7x_i32_bf16_1_alg».proof.Proof.Gen.Pre_finite_inputs_Kernel
import proofs.«900954_g7700000000000955_dist_mean_ax0_shard0_i_m512_n256_v7x_i32_bf16_1_alg».proof.Proof.Gen.Pre_finite_inputs_ReferenceIdeal
import proofs.«900954_g7700000000000955_dist_mean_ax0_shard0_i_m512_n256_v7x_i32_bf16_1_alg».proof.Proof.Launch
import proofs.«900954_g7700000000000955_dist_mean_ax0_shard0_i_m512_n256_v7x_i32_bf16_1_alg».proof.Proof.Bits.Launch
import proofs.«900954_g7700000000000955_dist_mean_ax0_shard0_i_m512_n256_v7x_i32_bf16_1_alg».proof.Proof.Value
import proofs.«900954_g7700000000000955_dist_mean_ax0_shard0_i_m512_n256_v7x_i32_bf16_1_alg».proof.Proof.Gen.ReferenceIdeal.Run
import proofs.«900954_g7700000000000955_dist_mean_ax0_shard0_i_m512_n256_v7x_i32_bf16_1_alg».proof.Proof.Gen.ReferenceIdeal.Read

noncomputable section

namespace Cert.Proof.MeanClaims

open Idealize.ShloMosaic Idealize.ShloMosaic.TcCoe Idealize.SL.Sem

theorem frame_p : Cert.frame_Kernel := fun m ρ _ =>
  (θ_run Cert.Kernel.defs _ _).mono (fun _ h c => (h c (0 : Fin 2)).trans (Cert.Kernel.Mean.finalA_x m c))
    (Cert.Kernel.Mean.run_main (F := Bits) m ρ)

theorem frame_pi : Cert.frame_KernelIdeal := fun m ρ _ =>
  (θ_run Cert.KernelIdeal.defs _ _).mono (fun _ h c => (h c (0 : Fin 2)).trans (Cert.KernelIdeal.Mean.finalA_x m c))
    (Cert.KernelIdeal.Mean.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Each device's block of `x` is its block of the whole array, so its result is the reference's. -/
theorem algebraic : Cert.algebraic_KernelIdeal_ReferenceIdeal := by
  intro m ρ m' ρ' _ hagree
  refine ⟨Cert.ReferenceIdeal.Read.val_main_v3 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨?_, ?_⟩) (Cert.KernelIdeal.Mean.run_main (F := Ideal) m ρ)
    · refine ((h c (1 : Fin 2)).trans (Cert.KernelIdeal.Mean.finalA_out m c)).trans ?_
      have hx : Cert.KernelIdeal.Mean.xstg m = fun d : Dev Cert.KernelIdeal.nD =>
          Layout.block ⟨2, ![512, 256]⟩ ⟨2, ![16384, 256]⟩ 0 32 d
            (m' (((0 : Dev Cert.ReferenceIdeal.nD).tc : Thread Cert.ReferenceIdeal.nD Cert.ReferenceIdeal.τ).loc Cert.ReferenceIdeal.main_arg0)) :=
        funext fun d => (Cert.KernelIdeal.Mean.xstg_eq m d).trans (hagree d)
      unfold Cert.KernelIdeal.Mean.outF
      rw [hx]
      exact Cert.KernelIdeal.Mean.outOf_eq_ref _ c
    · exact (h c (0 : Fin 2)).trans (Cert.KernelIdeal.Mean.finalA_x m c)
  · refine (θ_run Cert.ReferenceIdeal.defs _ _).mono (fun _ h => ⟨?_, (h 0).2⟩) (Cert.ReferenceIdeal.Value.run (F := Ideal) m' ρ')
    exact (h 0).1.trans (Cert.ReferenceIdeal.Read.val_main_v3_eq _)

end Cert.Proof.MeanClaims

end
-- ==== Proof.lean ====
/- The mean of a 16384 × 256 array over its rows on a ring of 32 devices: block sums, an all-to-all exchange of the 32 rows of partial sums, their sum times 2⁻¹⁴. One run of the mesh per program gives the frames; regrouping one finite sum gives the value. -/
import proofs.«900954_g7700000000000955_dist_mean_ax0_shard0_i_m512_n256_v7x_i32_bf16_1_alg».proof.Defs
import proofs.«900954_g7700000000000955_dist_mean_ax0_shard0_i_m512_n256_v7x_i32_bf16_1_alg».proof.Proof.Gen.Kernel
import proofs.«900954_g7700000000000955_dist_mean_ax0_shard0_i_m512_n256_v7x_i32_bf16_1_alg».proof.Proof.Gen.Kernel.Skeleton
import proofs.«900954_g7700000000000955_dist_mean_ax0_shard0_i_m512_n256_v7x_i32_bf16_1_alg».proof.Proof.Gen.Kernel.Launch
import proofs.«900954_g7700000000000955_dist_mean_ax0_shard0_i_m512_n256_v7x_i32_bf16_1_alg».proof.Proof.Gen.Kernel.Points
import proofs.«900954_g7700000000000955_dist_mean_ax0_shard0_i_m512_n256_v7x_i32_bf16_1_alg».proof.Proof.Gen.Kernel.Frame
import proofs.«900954_g7700000000000955_dist_mean_ax0_shard0_i_m512_n256_v7x_i32_bf16_1_alg».proof.Proof.Gen.KernelIdeal
import proofs.«900954_g7700000000000955_dist_mean_ax0_shard0_i_m512_n256_v7x_i32_bf16_1_alg».proof.Proof.Gen.KernelIdeal.Skeleton
import proofs.«900954_g7700000000000955_dist_mean_ax0_shard0_i_m512_n256_v7x_i32_bf16_1_alg».proof.Proof.Gen.KernelIdeal.Launch
import proofs.«900954_g7700000000000955_dist_mean_ax0_shard0_i_m512_n256_v7x_i32_bf16_1_alg».proof.Proof.Gen.KernelIdeal.Points
import proofs.«900954_g7700000000000955_dist_mean_ax0_shard0_i_m512_n256_v7x_i32_bf16_1_alg».proof.Proof.Gen.KernelIdeal.Frame
import proofs.«900954_g7700000000000955_dist_mean_ax0_shard0_i_m512_n256_v7x_i32_bf16_1_alg».proof.Proof.Gen.ReferenceIdeal
import proofs.«900954_g7700000000000955_dist_mean_ax0_shard0_i_m512_n256_v7x_i32_bf16_1_alg».proof.Proof.Gen.Pre_finite_inputs_Kernel
import proofs.«900954_g7700000000000955_dist_mean_ax0_shard0_i_m512_n256_v7x_i32_bf16_1_alg».proof.Proof.Gen.Pre_finite_inputs_ReferenceIdeal
import Idealize.ShloMosaic.Adequacy
import Idealize.ShloMosaic.Init
import proofs.«900954_g7700000000000955_dist_mean_ax0_shard0_i_m512_n256_v7x_i32_bf16_1_alg».proof.Proof.Claims

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  MeanClaims.frame_p, MeanClaims.frame_pi, MeanClaims.frame_ri, MeanClaims.preserves, MeanClaims.algebraic⟩

end Cert.Proof

end
